-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x1024 : Shape := ⟨3, ![4, 2048, 1024]⟩
abbrev S1024x1024 : Shape := ⟨2, ![1024, 1024]⟩
abbrev S1024 : Shape := ⟨1, ![1024]⟩
abbrev S_ : Shape := ⟨0, ![]⟩

class Facts : Prop where
  bcast_S_S4x2048x1024 : S_.BroadcastsInDim S4x2048x1024 (![] : Fin 0 → Fin S4x2048x1024.rank)
  reducesTo_S4x2048x1024_S_d0_1_2 : S4x2048x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part2 {F : FTy → Type} [FloatOps F] (main_arg7 : FVec F S1024x1024 .f32) (main_arg8 : FVec F S1024 .f32) (main_v33 : IVec S_ 1) : IVec S_ 1 :=
  let main_v34 : FVec F S1024x1024 .f32 := Host.absf main_arg7
  let main_cst_12 : FVec F S_ .f32 := constant S_ .f32 0x7F800000#32
  let main_v35 : FVec F S1024x1024 .f32 := broadcastInDim S1024x1024 ![] bcast_S_S1024x1024 main_cst_12
  let main_v36 : IVec S1024x1024 1 := cmpf .olt main_v34 main_v35
  let main_c_13 : IVec S_ 1 := constantI S_ 1 1#1
  let main_v37 : IVec S_ 1 := (fun x v => Host.reduce IntOp.andi x v reducesTo_S1024x1024_S_d0_1 h_S_) main_v36 main_c_13
  let main_v38 : IVec S_ 1 := andi main_v33 main_v37
  let main_v39 : FVec F S1024 .f32 := Host.absf main_arg8
  let main_cst_14 : FVec F S_ .f32 := constant S_ .f32 0x7F800000#32
  let main_v40 : FVec F S1024 .f32 := broadcastInDim S1024 ![] bcast_S_S1024 main_cst_14
  let main_v41 : IVec S1024 1 := cmpf .olt main_v39 main_v40
  let main_c_15 : IVec S_ 1 := constantI S_ 1 1#1
  let main_v42 : IVec S_ 1 := (fun x v => Host.reduce IntOp.andi x v reducesTo_S1024_S_d0 h_S_) main_v41 main_c_15
  let main_v43 : IVec S_ 1 := andi main_v38 main_v42
  main_v43

def fn_part1 {F : FTy → Type} [FloatOps F] (main_arg4 : FVec F S1024 .f32) (main_arg5 : FVec F S1024x1024 .f32) (main_arg6 : FVec F S1024 .f32) (main_arg7 : FVec F S1024x1024 .f32) (main_arg8 : FVec F S1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S1024x1024 .f32 := Host.absf main_arg5
  let main_cst_8 : FVec F S_ .f32 := constant S_ .f32 0x7F800000#32
  let main_v25 : FVec F S1024x1024 .f32 := broadcastInDim S1024x1024 ![] bcast_S_S1024x1024 main_cst_8
  let main_v26 : IVec S1024x1024 1 := cmpf .olt main_v24 main_v25
  let main_c_9 : IVec S_ 1 := constantI S_ 1 1#1
  let main_v27 : IVec S_ 1 := (fun x v => Host.reduce IntOp.andi x v reducesTo_S1024x1024_S_d0_1 h_S_) main_v26 main_c_9
  let main_v28 : IVec S_ 1 := andi main_v23 main_v27
  let main_v29 : FVec F S1024 .f32 := Host.absf main_arg6
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  fn_part2 (F := F) main_arg7 main_arg8 main_v33

def fn {F : FTy → Type} [FloatOps F] (main_arg0 : FVec F S4x2048x1024 .f32) (main_arg1 : FVec F S4x2048x1024 .f32) (main_arg2 : FVec F S4x2048x1024 .f32) (main_arg3 : FVec F S1024x1024 .f32) (main_arg4 : FVec F S1024 .f32) (main_arg5 : FVec F S1024x1024 .f32) (main_arg6 : FVec F S1024 .f32) (main_arg7 : FVec F S1024x1024 .f32) (main_arg8 : FVec F S1024 .f32) : IVec S_ 1 :=
  let main_v0 : FVec F S4x2048x1024 .f32 := Host.absf main_arg0
  let main_cst : FVec F S_ .f32 := constant S_ .f32 0x7F800000#32
  let main_v1 : FVec F S4x2048x1024 .f32 := broadcastInDim S4x2048x1024 ![] bcast_S_S4x2048x1024 main_cst
  let main_v2 : IVec S4x2048x1024 1 := cmpf .olt main_v0 main_v1
  let main_c : IVec S_ 1 := constantI S_ 1 1#1
  let main_v3 : IVec S_ 1 := (fun x v => Host.reduce IntOp.andi x v reducesTo_S4x2048x1024_S_d0_1_2 h_S_) main_v2 main_c
  let main_v4 : FVec F S4x2048x1024 .f32 := Host.absf main_arg1
  let main_cst_0 : FVec F S_ .f32 := constant S_ .f32 0x7F800000#32
  let main_v5 : FVec F S4x2048x1024 .f32 := broadcastInDim S4x2048x1024 ![] bcast_S_S4x2048x1024 main_cst_0
  let main_v6 : IVec S4x2048x1024 1 := cmpf .olt main_v4 main_v5
  let main_c_1 : IVec S_ 1 := constantI S_ 1 1#1
  let main_v7 : IVec S_ 1 := (fun x v => Host.reduce IntOp.andi x v reducesTo_S4x2048x1024_S_d0_1_2 h_S_) main_v6 main_c_1
  let main_v8 : IVec S_ 1 := andi main_v3 main_v7
  let main_v9 : FVec F S4x2048x1024 .f32 := Host.absf main_arg2
  let main_cst_2 : FVec F S_ .f32 := constant S_ .f32 0x7F800000#32
  let main_v10 : FVec F S4x2048x1024 .f32 := broadcastInDim S4x2048x1024 ![] bcast_S_S4x2048x1024 main_cst_2
  let main_v11 : IVec S4x2048x1024 1 := cmpf .olt main_v9 main_v10
  let main_c_3 : IVec S_ 1 := constantI S_ 1 1#1
  let main_v12 : IVec S_ 1 := (fun x v => Host.reduce IntOp.andi x v reducesTo_S4x2048x1024_S_d0_1_2 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_arg5 main_arg6 main_arg7 main_arg8 main_v13 main_v16
-- ==== Kernel.lean ====
abbrev S4x2048x1024 : Shape := ⟨3, ![4, 2048, 1024]⟩
abbrev S1024x1024 : Shape := ⟨2, ![1024, 1024]⟩
abbrev S1024 : Shape := ⟨1, ![1024]⟩
abbrev S8192x1024 : Shape := ⟨2, ![8192, 1024]⟩
abbrev S1x1024 : Shape := ⟨2, ![1, 1024]⟩
abbrev S2048x1024 : Shape := ⟨2, ![2048, 1024]⟩
abbrev S1x512x1024 : Shape := ⟨3, ![1, 512, 1024]⟩
abbrev S1x2048x1024 : Shape := ⟨3, ![1, 2048, 1024]⟩
abbrev S512x1024 : Shape := ⟨2, ![512, 1024]⟩
abbrev S512x1 : Shape := ⟨2, ![512, 1]⟩
abbrev S512x512 : Shape := ⟨2, ![512, 512]⟩
abbrev S512 : Shape := ⟨1, ![512]⟩

abbrev nBuf : Space → Nat
  | .hbm => 25
  | .vmem => 26
  | .smem => 0
  | _ => 0

abbrev bufTy : (tb : Table) → Fin (tcTables nBuf tb) → BufTy
  | .hbm, ⟨0, _⟩ => ⟨S4x2048x1024, .f32⟩
  | .hbm, ⟨1, _⟩ => ⟨S4x2048x1024, .f32⟩
  | .hbm, ⟨2, _⟩ => ⟨S4x2048x1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S1024x1024, .f32⟩
  | .hbm, ⟨8, _⟩ => ⟨S1024, .f32⟩
  | .hbm, ⟨9, _⟩ => ⟨S8192x1024, .f32⟩
  | .hbm, ⟨10, _⟩ => ⟨S8192x1024, .f32⟩
  | .hbm, ⟨11, _⟩ => ⟨S1024x1024, .f32⟩
  | .hbm, ⟨12, _⟩ => ⟨S1024x1024, .bf16⟩
  | .hbm, ⟨13, _⟩ => ⟨S1024x1024, .f32⟩
  | .hbm, ⟨14, _⟩ => ⟨S1024x1024, .bf16⟩
  | .hbm, ⟨15, _⟩ => ⟨S1024x1024, .f32⟩
  | .hbm, ⟨16, _⟩ => ⟨S1024x1024, .bf16⟩
  | .hbm, ⟨17, _⟩ => ⟨S1x1024, .f32⟩
  | .hbm, ⟨18, _⟩ => ⟨S1x1024, .f32⟩
  | .hbm, ⟨19, _⟩ => ⟨S1x1024, .f32⟩
  | .hbm, ⟨20, _⟩ => ⟨S8192x1024, .bf16⟩
  | .hbm, ⟨21, _⟩ => ⟨S4x2048x1024, .bf16⟩
  | .hbm, ⟨22, _⟩ => ⟨S8192x1024, .bf16⟩
  | .hbm, ⟨23, _⟩ => ⟨S4x2048x1024, .bf16⟩
  | .hbm, ⟨24, _⟩ => ⟨S4x2048x1024, .f32⟩
  | .local _ .vmem, ⟨0, _⟩ => ⟨S2048x1024, .f32⟩
  | .local _ .vmem, ⟨1, _⟩ => ⟨S2048x1024, .f32⟩
  | .local _ .vmem, ⟨2, _⟩ => ⟨S1024x1024, .bf16⟩
  | .local _ .vmem, ⟨3, _⟩ => ⟨S1x1024, .f32⟩
  | .local _ .vmem, ⟨4, _⟩ => ⟨S2048x1024, .bf16⟩
  | .local _ .vmem, ⟨5, _⟩ => ⟨S2048x1024, .bf16⟩
  | .local _ .vmem, ⟨6, _⟩ => ⟨S2048x1024, .f32⟩
  | .local _ .vmem, ⟨7, _⟩ => ⟨S2048x1024, .f32⟩
  | .local _ .vmem, ⟨8, _⟩ => ⟨S1024x1024, .bf16⟩
  | .local _ .vmem, ⟨9, _⟩ => ⟨S1x1024, .f32⟩
  | .local _ .vmem, ⟨10, _⟩ => ⟨S2048x1024, .bf16⟩
  | .local _ .vmem, ⟨11, _⟩ => ⟨S2048x1024, .bf16⟩
  | .local _ .vmem, ⟨12, _⟩ => ⟨S1x512x1024, .f32⟩
  | .local _ .vmem, ⟨13, _⟩ => ⟨S1x512x1024, .f32⟩
  | .local _ .vmem, ⟨14, _⟩ => ⟨S1x2048x1024, .bf16⟩
  | .local _ .vmem, ⟨15, _⟩ => ⟨S1x2048x1024, .bf16⟩
  | .local _ .vmem, ⟨16, _⟩ => ⟨S1x2048x1024, .bf16⟩
  | .local _ .vmem, ⟨17, _⟩ => ⟨S1x2048x1024, .bf16⟩
  | .local _ .vmem, ⟨18, _⟩ => ⟨S1024x1024, .bf16⟩
  | .local _ .vmem, ⟨19, _⟩ => ⟨S1x1024, .f32⟩
  | .local _ .vmem, ⟨20, _⟩ => ⟨S1x512x1024, .f32⟩
  | .local _ .vmem, ⟨21, _⟩ => ⟨S1x512x1024, .f32⟩
  | .local _ .vmem, ⟨22, _⟩ => ⟨S512x1024, .bf16⟩
  | .local _ .vmem, ⟨23, _⟩ => ⟨S512x1, .f32⟩
  | .local _ .vmem, ⟨24, _⟩ => ⟨S512x1, .f32⟩
  | .local _ .vmem, ⟨25, _⟩ => ⟨S512x1024, .f32⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg2_1 : Ref sig .tc := ⟨.vmem, 17, rfl⟩
abbrev cc2_stg3_0 : Ref sig .tc := ⟨.vmem, 18, rfl⟩
abbrev cc2_stg4_0 : Ref sig .tc := ⟨.vmem, 19, rfl⟩
abbrev cc2_stg5_0 : Ref sig .tc := ⟨.vmem, 20, rfl⟩
abbrev cc2_stg5_1 : Ref sig .tc := ⟨.vmem, 21, rfl⟩
abbrev cc2_scratch0 : Ref sig .tc := ⟨.vmem, 22, rfl⟩
abbrev cc2_scratch1 : Ref sig .tc := ⟨.vmem, 23, rfl⟩
abbrev cc2_scratch2 : Ref sig .tc := ⟨.vmem, 24, rfl⟩
abbrev cc2_scratch3 : Ref sig .tc := ⟨.vmem, 25, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem2_1 : DmaSem sig := 17
abbrev cc2_sem3_0 : DmaSem sig := 18
abbrev cc2_sem4_0 : DmaSem sig := 19
abbrev cc2_sem5_0 : DmaSem sig := 20
abbrev cc2_sem5_1 : DmaSem sig := 21

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2048x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![4], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2048x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1024x1024 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x1024 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S2048x1024 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨3, ![4, 4, 4], ![false, false, false]⟩

def k2_mult1 (i : grid2.Coords) : BitVec 32 :=
  let arg2 : BitVec 32 := BitVec.ofNat 32 (i 2).val
  let c512_i32 : BitVec 32 := 512#32
  let v4 : BitVec 32 := Scalar.muli arg2 c512_i32
  v4
def k2_off1 (i : grid2.Coords) : Fin 3 → Nat :=
  let c0_2 : Index := 0#32
  let arg2 : BitVec 32 := BitVec.ofNat 32 (i 2).val
  let c512_i32 : BitVec 32 := 512#32
  let v4 : BitVec 32 := Scalar.muli arg2 c512_i32
  let v5 : BitVec 32 := v4
  let v6 : Index := Scalar.indexCast v5
  let c0_3 : Index := 0#32
  ![0, v6.toNat, 0]
def k2_cond2 (i : grid2.Coords) : BitVec 1 :=
  let arg2 : BitVec 32 := BitVec.ofNat 32 (i 2).val
  let c3_i32 : BitVec 32 := 3#32
  let v43 : BitVec 1 := Scalar.cmpi .eq arg2 c3_i32
  let v44 : BitVec 32 := Scalar.extui v43
  let c0_i32_23 : BitVec 32 := 0#32
  let v45 : BitVec 1 := Scalar.cmpi .ne v44 c0_i32_23
  v45

def cc2_transform_0 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc2_transform_1 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc2_transform_2 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc2_transform_3 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage2_0 : Fin 2 → Memref sig .tc .vmem S1x512x1024 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true, false]

abbrev stage2_1 : Fin 2 → Memref sig .tc .vmem S1x2048x1024 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, false, false]

abbrev stage2_2 : Fin 2 → Memref sig .tc .vmem S1x2048x1024 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, false, false]

abbrev stage2_3 : Fin 1 → Memref sig .tc .vmem S1024x1024 .bf16 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false, false, false]

abbrev stage2_4 : Fin 1 → Memref sig .tc .vmem S1x1024 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false, false, false]

abbrev stage2_5 : Fin 2 → Memref sig .tc .vmem S1x512x1024 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true, true, false]

class Facts₀ : Prop where
  shapeCasts_S4x2048x1024_S8192x1024 : S4x2048x1024.ShapeCasts S8192x1024
  transposes_S1024x1024_S1024x1024_1_0 : S1024x1024.Transposes [1, 0] S1024x1024
  bitsLt_bf16_f32 : FTy.bits .bf16 < FTy.bits .f32
  shapeCasts_S1024_S1x1024 : S1024.ShapeCasts S1x1024
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S2048x1024 : S1x1024.Broadcasts S2048x1024
  packedbf16_S2048x1024_S2048x1024_0_0 : (Rect.unit (s := S2048x1024) ![0, 0] S2048x1024.size inb_S2048x1024_S2048x1024_0_0).PackedRows (EltTy.packing .bf16)
  shapeCasts_S8192x1024_S4x2048x1024 : S8192x1024.ShapeCasts S4x2048x1024
  inb_S1x512x1024_S1x512x1024_0_0_0 : ∀ a, (![0, 0, 0] : Fin 3 → Nat) a + S1x512x1024.size a ≤ S1x512x1024.size a
  h_S1x512x1024 : 0 < S1x512x1024.numel
  shapeCasts_S1x512x1024_S512x1024 : S1x512x1024.ShapeCasts S512x1024
  broadcasts_S1x1024_S512x1024 : S1x1024.Broadcasts S512x1024
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  packedbf16_S512x1024_S512x1024_0_0 : (Rect.unit (s := S512x1024) ![0, 0] S512x1024.size inb_S512x1024_S512x1024_0_0).PackedRows (EltTy.packing .bf16)
  inb_S512x1_S512x1_0_0 : ∀ a, (![0, 0] : Fin 2 → Nat) a + S512x1.size a ≤ S512x1.size a
  h_S512x1 : 0 < S512x1.numel
  shapeCasts_S512x1_S512x1 : S512x1.ShapeCasts S512x1
  reduces_S512x512_S512 : S512x512.Reduces [1] S512
  shapeCasts_S512_S512x1 : S512.ShapeCasts S512x1
  broadcasts_S512x1_S512x512 : S512x1.Broadcasts S512x512
  broadcasts_S512x1_S512x1024 : S512x1.Broadcasts S512x1024
  shapeCasts_S512x1024_S1x512x1024 : S512x1024.ShapeCasts S1x512x1024
  dot_S2048x1024_S1024x1024_S2048x1024_1_0_0_1_n_n_wf : DotDims.WF S2048x1024 S1024x1024 S2048x1024 [1] [0] [0] [1] [] []
  dot_S512x1024_S1024x1024_S512x1024_1_0_0_1_n_n_wf : DotDims.WF S512x1024 S1024x1024 S512x1024 [1] [0] [0] [1] [] []
  dot_S512x1024_S512x1024_S512x512_1_1_0_0_n_n_wf : DotDims.WF S512x1024 S512x1024 S512x512 [1] [1] [0] [0] [] []
  dot_S512x512_S512x1024_S512x1024_1_0_0_1_n_n_wf : DotDims.WF S512x512 S512x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x1024.size a ≤ S8192x1024.size a
  hwx0_0 : ∀ i : grid0.Coords, EltTy.bits .f32 = 32 ∨ (Rect.block (s := S8192x1024) S2048x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .bf16 = 32 ∨ (Rect.block (s := S1024x1024) S1024x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x1024.size a
  hwx0_2 : ∀ i : grid0.Coords, EltTy.bits .f32 = 32 ∨ (Rect.block (s := S1x1024) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x1024.size a ≤ S8192x1024.size a
  hwx0_3 : ∀ i : grid0.Coords, EltTy.bits .bf16 = 32 ∨ (Rect.block (s := S8192x1024) S2048x1024.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2048x1024.size a ≤ S8192x1024.size a
  hwx1_0 : ∀ i : grid1.Coords, EltTy.bits .f32 = 32 ∨ (Rect.block (s := S8192x1024) S2048x1024.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1024x1024.size a ≤ S1024x1024.size a
  hwx1_1 : ∀ i : grid1.Coords, EltTy.bits .bf16 = 32 ∨ (Rect.block (s := S1024x1024) S1024x1024.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x1024.size a ≤ S1x1024.size a
  hwx1_2 : ∀ i : grid1.Coords, EltTy.bits .f32 = 32 ∨ (Rect.block (s := S1x1024) S1x1024.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2048x1024.size a ≤ S8192x1024.size a
  hwx1_3 : ∀ i : grid1.Coords, EltTy.bits .bf16 = 32 ∨ (Rect.block (s := S8192x1024) S2048x1024.size (cc1_transform_3 i) (hinb1_3 i)).WholeWords (EltTy.packing .bf16)
  hrank2 : 0 < grid2.rank
  k2_mult1_dvd : ∀ i : grid2.Coords, 512 ∣ (k2_mult1 i).toNat
  k2_off1_inb : ∀ i : grid2.Coords, ∀ a, (k2_off1 i) a + S1x512x1024.size a ≤ S1x2048x1024.size a
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1x512x1024.size a ≤ S4x2048x1024.size a
  hwx2_0 : ∀ i : grid2.Coords, EltTy.bits .f32 = 32 ∨ (Rect.block (s := S4x2048x1024) S1x512x1024.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1x2048x1024.size a ≤ S4x2048x1024.size a
  hwx2_1 : ∀ i : grid2.Coords, EltTy.bits .bf16 = 32 ∨ (Rect.block (s := S4x2048x1024) S1x2048x1024.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1x2048x1024.size a ≤ S4x2048x1024.size a
  hwx2_2 : ∀ i : grid2.Coords, EltTy.bits .bf16 = 32 ∨ (Rect.block (s := S4x2048x1024) S1x2048x1024.size (cc2_transform_2 i) (hinb2_2 i)).WholeWords (EltTy.packing .bf16)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1024x1024.size a ≤ S1024x1024.size a
  hwx2_3 : ∀ i : grid2.Coords, EltTy.bits .bf16 = 32 ∨ (Rect.block (s := S1024x1024) S1024x1024.size (cc2_transform_3 i) (hinb2_3 i)).WholeWords (EltTy.packing .bf16)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x1024.size a ≤ S1x1024.size a
  hwx2_4 : ∀ i : grid2.Coords, EltTy.bits .f32 = 32 ∨ (Rect.block (s := S1x1024) S1x1024.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S1x512x1024.size a ≤ S4x2048x1024.size a
  hwx2_5 : ∀ i : grid2.Coords, EltTy.bits .f32 = 32 ∨ (Rect.block (s := S4x2048x1024) S1x512x1024.size (cc2_transform_5 i) (hinb2_5 i)).WholeWords (EltTy.packing .f32)

variable [Facts₀]

def dot_S2048x1024_S1024x1024_S2048x1024_1_0_0_1_n_n : DotDims S2048x1024 S1024x1024 S2048x1024 where
  lhsContracting := [1]
  rhsContracting := [0]
  lhsNonContracting := [0]
  rhsNonContracting := [1]
  lhsBatch := []
  rhsBatch := []
  wf := dot_S2048x1024_S1024x1024_S2048x1024_1_0_0_1_n_n_wf
def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf
def dot_S512x1024_S512x1024_S512x512_1_1_0_0_n_n : DotDims S512x1024 S512x1024 S512x512 where
  lhsContracting := [1]
  rhsContracting := [1]
  lhsNonContracting := [0]
  rhsNonContracting := [0]
  lhsBatch := []
  rhsBatch := []
  wf := dot_S512x1024_S512x1024_S512x512_1_1_0_0_n_n_wf
def dot_S512x512_S512x1024_S512x1024_1_0_0_1_n_n : DotDims S512x512 S512x1024 S512x1024 where
  lhsContracting := [1]
  rhsContracting := [0]
  lhsNonContracting := [0]
  rhsNonContracting := [1]
  lhsBatch := []
  rhsBatch := []
  wf := dot_S512x512_S512x1024_S512x1024_1_0_0_1_n_n_wf

abbrev win0_0 : Pipeline.Window sig grid0 :=
  Pipeline.Window.ofSpec (Memref.whole main_v0) S2048x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v8) S1x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v11) S2048x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v1) S2048x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v5) S1024x1024.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v9) S1x1024.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v13) S2048x1024.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_arg0) S1x512x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v12) S1x2048x1024.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v14) S1x2048x1024.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v7) S1024x1024.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v10) S1x1024.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v15) S1x512x1024.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev idle2 : Fin 6 → grid2.Coords → Bool := fun | 0 => fun _ => false | 1 => fun _ => false | 2 => fun _ => false | 3 => fun _ => false | 4 => fun _ => false | 5 => fun i => !(k2_cond2 i == 1#1) | ⟨_ + 6, h⟩ => absurd h (Nat.not_lt.2 (Nat.le_add_left _ _))

class Facts : Prop extends Facts₀ where

variable [Facts]
-- ==== ReferenceIdeal.lean ====
abbrev S4x2048x1024 : Shape := ⟨3, ![4, 2048, 1024]⟩
abbrev S1024x1024 : Shape := ⟨2, ![1024, 1024]⟩
abbrev S1024 : Shape := ⟨1, ![1024]⟩
abbrev S1x1x1024 : Shape := ⟨3, ![1, 1, 1024]⟩
abbrev S4x2048x2048 : Shape := ⟨3, ![4, 2048, 2048]⟩
abbrev S_ : Shape := ⟨0, ![]⟩
abbrev S4x2048 : Shape := ⟨2, ![4, 2048]⟩
abbrev S4x2048x1 : Shape := ⟨3, ![4, 2048, 1]⟩

abbrev nBuf : Space → Nat
  | .hbm => 40
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S4x2048x1024, .f32⟩
  | .hbm, ⟨2, _⟩ => ⟨S4x2048x1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S1024x1024, .f32⟩
  | .hbm, ⟨8, _⟩ => ⟨S1024, .f32⟩
  | .hbm, ⟨9, _⟩ => ⟨S4x2048x1024, .f32⟩
  | .hbm, ⟨10, _⟩ => ⟨S1x1x1024, .f32⟩
  | .hbm, ⟨11, _⟩ => ⟨S4x2048x1024, .f32⟩
  | .hbm, ⟨12, _⟩ => ⟨S4x2048x1024, .f32⟩
  | .hbm, ⟨13, _⟩ => ⟨S4x2048x1024, .f32⟩
  | .hbm, ⟨14, _⟩ => ⟨S1x1x1024, .f32⟩
  | .hbm, ⟨15, _⟩ => ⟨S4x2048x1024, .f32⟩
  | .hbm, ⟨16, _⟩ => ⟨S4x2048x1024, .f32⟩
  | .hbm, ⟨17, _⟩ => ⟨S4x2048x1024, .f32⟩
  | .hbm, ⟨18, _⟩ => ⟨S1x1x1024, .f32⟩
  | .hbm, ⟨19, _⟩ => ⟨S4x2048x1024, .f32⟩
  | .hbm, ⟨20, _⟩ => ⟨S4x2048x1024, .f32⟩
  | .hbm, ⟨21, _⟩ => ⟨S4x2048x2048, .f32⟩
  | .hbm, ⟨22, _⟩ => ⟨S_, .f32⟩
  | .hbm, ⟨23, _⟩ => ⟨S4x2048x2048, .f32⟩
  | .hbm, ⟨24, _⟩ => ⟨S4x2048x2048, .f32⟩
  | .hbm, ⟨25, _⟩ => ⟨S_, .f32⟩
  | .hbm, ⟨26, _⟩ => ⟨S4x2048, .f32⟩
  | .hbm, ⟨27, _⟩ => ⟨S_, .f32⟩
  | .hbm, ⟨28, _⟩ => ⟨S4x2048, .f32⟩
  | .hbm, ⟨29, _⟩ => ⟨S4x2048, .f32⟩
  | .hbm, ⟨30, _⟩ => ⟨S4x2048x1, .f32⟩
  | .hbm, ⟨31, _⟩ => ⟨S4x2048x2048, .f32⟩
  | .hbm, ⟨32, _⟩ => ⟨S4x2048x2048, .f32⟩
  | .hbm, ⟨33, _⟩ => ⟨S4x2048x2048, .f32⟩
  | .hbm, ⟨34, _⟩ => ⟨S_, .f32⟩
  | .hbm, ⟨35, _⟩ => ⟨S4x2048, .f32⟩
  | .hbm, ⟨36, _⟩ => ⟨S4x2048x1, .f32⟩
  | .hbm, ⟨37, _⟩ => ⟨S4x2048x2048, .f32⟩
  | .hbm, ⟨38, _⟩ => ⟨S4x2048x2048, .f32⟩
  | .hbm, ⟨39, _⟩ => ⟨S4x2048x1024, .f32⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst : Ref sig .tc := ⟨.hbm, 22, rfl⟩
abbrev main_v13 : Ref sig .tc := ⟨.hbm, 23, rfl⟩
abbrev main_v14 : Ref sig .tc := ⟨.hbm, 24, rfl⟩
abbrev main_cst_0 : Ref sig .tc := ⟨.hbm, 25, rfl⟩
abbrev main_v15 : Ref sig .tc := ⟨.hbm, 26, rfl⟩
abbrev main_cst_1 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_2 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]

class Facts₀ : Prop where
  bcast_S1024_S1x1x1024_2 : S1024.BroadcastsInDim S1x1x1024 (![2] : Fin 1 → Fin S1x1x1024.rank)
  bcast_S1x1x1024_S4x2048x1024_0_1_2 : S1x1x1024.BroadcastsInDim S4x2048x1024 (![0, 1, 2] : Fin 3 → Fin S4x2048x1024.rank)
  bcast_S_S4x2048x2048 : S_.BroadcastsInDim S4x2048x2048 (![] : Fin 0 → Fin S4x2048x2048.rank)
  reducesTo_S4x2048x2048_S4x2048_d2 : S4x2048x2048.ReducesTo [2] S4x2048
  h_S_ : 0 < S_.numel
  bcast_S_S4x2048 : S_.BroadcastsInDim S4x2048 (![] : Fin 0 → Fin S4x2048.rank)
  bcast_S4x2048_S4x2048x1_0_1 : S4x2048.BroadcastsInDim S4x2048x1 (![0, 1] : Fin 2 → Fin S4x2048x1.rank)
  bcast_S4x2048x1_S4x2048x2048_0_1_2 : S4x2048x1.BroadcastsInDim S4x2048x2048 (![0, 1, 2] : Fin 3 → Fin S4x2048x2048.rank)
  dot_S4x2048x1024_S1024x1024_S4x2048x1024_2_1_01_0_n_n_wf : DotDims.WF S4x2048x1024 S1024x1024 S4x2048x1024 [2] [1] [0, 1] [0] [] []
  dot_S4x2048x1024_S4x2048x1024_S4x2048x2048_2_2_1_1_0_0_wf : DotDims.WF S4x2048x1024 S4x2048x1024 S4x2048x2048 [2] [2] [1] [1] [0] [0]
  dot_S4x2048x2048_S4x2048x1024_S4x2048x1024_2_1_1_2_0_0_wf : DotDims.WF S4x2048x2048 S4x2048x1024 S4x2048x1024 [2] [1] [1] [2] [0] [0]

variable [Facts₀]

def dot_S4x2048x1024_S1024x1024_S4x2048x1024_2_1_01_0_n_n : DotDims S4x2048x1024 S1024x1024 S4x2048x1024 where
  lhsContracting := [2]
  rhsContracting := [1]
  lhsNonContracting := [0, 1]
  rhsNonContracting := [0]
  lhsBatch := []
  rhsBatch := []
  wf := dot_S4x2048x1024_S1024x1024_S4x2048x1024_2_1_01_0_n_n_wf
def dot_S4x2048x1024_S4x2048x1024_S4x2048x2048_2_2_1_1_0_0 : DotDims S4x2048x1024 S4x2048x1024 S4x2048x2048 where
  lhsContracting := [2]
  rhsContracting := [2]
  lhsNonContracting := [1]
  rhsNonContracting := [1]
  lhsBatch := [0]
  rhsBatch := [0]
  wf := dot_S4x2048x1024_S4x2048x1024_S4x2048x2048_2_2_1_1_0_0_wf
def dot_S4x2048x2048_S4x2048x1024_S4x2048x1024_2_1_1_2_0_0 : DotDims S4x2048x2048 S4x2048x1024 S4x2048x1024 where
  lhsContracting := [2]
  rhsContracting := [1]
  lhsNonContracting := [1]
  rhsNonContracting := [2]
  lhsBatch := [0]
  rhsBatch := [0]
  wf := dot_S4x2048x2048_S4x2048x1024_S4x2048x1024_2_1_1_2_0_0_wf

class Facts : Prop extends Facts₀ where

variable [Facts]
-- ==== Proof.K.R0.lean ====
import proofs.«430256_j43482248905221_3_alg».proof.Proof.Gen.Kernel.Launch
import proofs.«430256_j43482248905221_3_alg».proof.Proof.Gen.Kernel.Skeleton
import proofs.«430256_j43482248905221_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev r0_x : Rect S2048x1024 := Rect.unit (s := S2048x1024) ![0, 0] S2048x1024.size inb_S2048x1024_S2048x1024_0_0

def out0_3 (x0 : Vec F S2048x1024 .f32) (x1 : Vec F S1024x1024 .bf16) (x2 : Vec F S1x1024 .f32) : Vec F S2048x1024 .bf16 :=
  View.canon [⟨r0_x, k0_pay1 (View.ld x0 r0_x) (View.ld x1 (Rect.unit (s := S1024x1024) ![0, 0] S1024x1024.size inb_S1024x1024_S1024x1024_0_0))
    (View.ld x2 (Rect.unit (s := S1x1024) ![0, 0] S1x1024.size inb_S1x1024_S1x1024_0_0))⟩]

theorem sound_kernel0 (c : Dev nD) (E : Set ℕ) (i : grid0.Coords) (arg1 : Memref sig .tc .vmem S2048x1024 .f32) (harg1 : arg1.IsWhole) (arg2 : Memref sig .tc .vmem S1024x1024 .bf16) (harg2 : arg2.IsWhole) (arg3 : Memref sig .tc .vmem S1x1024 .f32) (harg3 : arg3.IsWhole) (arg4 : Memref sig .tc .vmem S2048x1024 .bf16) (harg4 : arg4.IsWhole)
    (x0 : Vec F S2048x1024 .f32) (x1 : Vec F S1024x1024 .bf16) (x2 : Vec F S1x1024 .f32) (K : PUnit → sProp 𝕄) :
    iprop(owns c.tc arg1 fullShare x0 ∗ owns c.tc arg2 fullShare x1 ∗ owns c.tc arg3 fullShare x2 ∗ (∃ d, owns c.tc arg4 fullShare d)
        ∗ (iprop(owns c.tc arg1 fullShare x0 ∗ owns c.tc arg2 fullShare x1 ∗ owns c.tc arg3 fullShare x2 ∗ owns c.tc arg4 fullShare (out0_3 x0 x1 x2)) -∗ K ⟨⟩))
      ⊢ wp frame (wpE (defs₀ (F := F)) Variants.none c none) E (cc0__proj_kernel i arg1 harg1 arg2 harg2 arg3 harg3 arg4 harg4) K := by
  simp only [cc0__proj_kernel_eq_skeleton]; unfold cc0__proj_kernel_skel owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (View.cover_of_tiled _ S2048x1024.size (by rfl))

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem before0_0 (c : Dev nD) (t : Fin cfg0.N) (d) : (dat0 V c).before 0 t d = iblk0 V c 0 t :=
  (dat0 V c).before_in_eq_fetched 0 rfl (fun _ => rfl) (fun _ _ _ => rfl) (fun _ => rfl) t d
theorem before0_1 (c : Dev nD) (t : Fin cfg0.N) (d) : (dat0 V c).before 1 t d = iblk0 V c 1 t :=
  (dat0 V c).before_in_eq_fetched 1 rfl (fun _ => rfl) (fun _ _ _ => rfl) (fun _ => rfl) t d
theorem before0_2 (c : Dev nD) (t : Fin cfg0.N) (d) : (dat0 V c).before 2 t d = iblk0 V c 2 t :=
  (dat0 V c).before_in_eq_fetched 2 rfl (fun _ => rfl) (fun _ _ _ => rfl) (fun _ => rfl) t d

theorem body_obligation0 (c : Dev nD) : BodyObligation (dat0 (F := F) V c) (defs₀ (F := F)) Variants.none () Set.univ := fun t => by
  rw [bigSep_W0, bigSep_W0]
  simp only [before0_0, before0_1, before0_2]
  rw [show (dat0 V c).owesAt () t.succ = (dat0 V c).owesAt () t.castSucc from rfl]
  dsimp only [dat0]
  show _ ⊢ wp _ _ _ (bodyAt0 t) _
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  iframe H0 H1 H2
  isplitl [H3]; · iexists _; iexact H3
  iintro ⟨H0, H1, H2, H3⟩
  iframe

end Cert.Kernel.Frame

end
-- ==== Proof.K.R1.lean ====
import proofs.«430256_j43482248905221_3_alg».proof.Proof.K.R0

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat BodyObligation)

variable {F : FTy → Type} [FloatOps F]

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

-- region 1 runs region 0's body, so its output block is the same function of its three input blocks
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out0_3 (iblk1 V c 0 t) (iblk1 V c 1 t) (iblk1 V c 2 t)
  Φ _ := Pipeline.ΦA spec1 c
  q _ := fullShare
  owed _ := 0

theorem before1_0 (c : Dev nD) (t : Fin cfg1.N) (d) : (dat1 V c).before 0 t d = iblk1 V c 0 t :=
  (dat1 V c).before_in_eq_fetched 0 rfl (fun _ => rfl) (fun _ _ _ => rfl) (fun _ => rfl) t d
theorem before1_1 (c : Dev nD) (t : Fin cfg1.N) (d) : (dat1 V c).before 1 t d = iblk1 V c 1 t :=
  (dat1 V c).before_in_eq_fetched 1 rfl (fun _ => rfl) (fun _ _ _ => rfl) (fun _ => rfl) t d
theorem before1_2 (c : Dev nD) (t : Fin cfg1.N) (d) : (dat1 V c).before 2 t d = iblk1 V c 2 t :=
  (dat1 V c).before_in_eq_fetched 2 rfl (fun _ => rfl) (fun _ _ _ => rfl) (fun _ => rfl) t d

theorem body_obligation1 (c : Dev nD) : BodyObligation (dat1 (F := F) V c) (defs₀ (F := F)) Variants.none () Set.univ := fun t => by
  rw [bigSep_W1, bigSep_W1]
  simp only [before1_0, before1_1, before1_2]
  rw [show (dat1 V c).owesAt () t.succ = (dat1 V c).owesAt () t.castSucc from rfl]
  dsimp only [dat1]
  show _ ⊢ wp _ _ _ (cc0__proj_kernel (grid1.coords t) _ (hstage1_0 _) _ (hstage1_1 _) _ (hstage1_2 _) _ (hstage1_3 _)) _
  iintro ⟨HΦ, Ho, ⟨%d0, H0⟩, ⟨%d1, H1⟩, ⟨%d2, H2⟩, ⟨%d3, H3⟩⟩
  iapply (sound_kernel0 c Set.univ _ _ _ _ _ _ _ _ _ (iblk1 V c 0 t) (iblk1 V c 1 t) (iblk1 V c 2 t) _)
  iframe H0 H1 H2
  isplitl [H3]; · iexists _; iexact H3
  iintro ⟨H0, H1, H2, H3⟩
  iframe

end Cert.Kernel.Frame

end
-- ==== Proof.K.R2Runs.lean ====
import proofs.«430256_j43482248905221_3_alg».proof.Proof.Gen.Kernel.Launch
import proofs.«430256_j43482248905221_3_alg».proof.Proof.Gen.Kernel.Skeleton
import proofs.«430256_j43482248905221_3_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev St2 (F : FTy → Type) [FloatOps F] := Vec F S1x512x1024 .f32 × Vec F S512x1024 .bf16 × Vec F S512x1 .f32 × Vec F S512x1 .f32 × Vec F S512x1024 .f32

abbrev cond2_0 (i : grid2.Coords) : Prop := (Scalar.cmpi .ne (Scalar.extui (Scalar.cmpi .eq (BitVec.ofNat 32 (i 2).val) 0#32)) 0#32) = 1#1
theorem hcond2_0 : ∀ t : Fin cfg2.N, cond2_0 (grid2.coords t) ↔ t.val % 4 = 0 :=
  (by decide +kernel : ∀ t : Fin grid2.N, cond2_0 (grid2.coords t) ↔ t.val % 4 = 0)

abbrev cond2_1 (i : grid2.Coords) : Prop := k2_cond2 i = 1#1
theorem hcond2_1 : ∀ t : Fin cfg2.N, cond2_1 (grid2.coords t) ↔ t.val % 4 = 3 :=
  (by decide +kernel : ∀ t : Fin grid2.N, cond2_1 (grid2.coords t) ↔ t.val % 4 = 3)

abbrev VO2_5 : View sig .tc .vmem S1x512x1024 .f32 := (Memref.whole cc2_stg5_0 : Memref sig .tc .vmem S1x512x1024 .f32).view
abbrev ms2_0 (t : Fin cfg2.N) : Memref sig .tc .vmem S1x512x1024 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S1x2048x1024 .bf16 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1x2048x1024 .bf16 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S1024x1024 .bf16 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S1x1024 .f32 := win2_4.stage (cfg2.slots t 4)
abbrev hs2_4 (t : Fin cfg2.N) : (ms2_4 t).IsWhole := hstage2_4 ((cfg2.slots t 4).cast nbuf2_4)
abbrev ms2_5 (t : Fin cfg2.N) : Memref sig .tc .vmem S1x512x1024 .f32 := win2_5.stage (cfg2.slots t 5)
abbrev hs2_5 (t : Fin cfg2.N) : (ms2_5 t).IsWhole := hstage2_5 ((cfg2.slots t 5).cast nbuf2_5)
abbrev scM2_0 : Memref sig .tc .vmem S512x1024 .bf16 := Memref.whole cc2_scratch0
abbrev scM2_1 : Memref sig .tc .vmem S512x1 .f32 := Memref.whole cc2_scratch1
abbrev scM2_2 : Memref sig .tc .vmem S512x1 .f32 := Memref.whole cc2_scratch2
abbrev scM2_3 : Memref sig .tc .vmem S512x1024 .f32 := Memref.whole cc2_scratch3
abbrev VS2_0 : View sig .tc .vmem S512x1024 .bf16 := scM2_0.view
abbrev VS2_1 : View sig .tc .vmem S512x1 .f32 := scM2_1.view
abbrev VS2_2 : View sig .tc .vmem S512x1 .f32 := scM2_2.view
abbrev VS2_3 : View sig .tc .vmem S512x1024 .f32 := scM2_3.view

theorem owns_eq_unread {c : Dev nD} {s : Shape} {e : EltTy} {M : Memref sig .tc .vmem s e} (h : M.IsWhole) (X : s.Idx → Elt F e) :
    (owns c M fullShare X : sProp 𝕄) = (M.view.loc c ↦[M.view.set]{fullShare} h.unread X) := by
  unfold owns
  refine BI.equiv_iff.mp ⟨?_, ?_⟩
  · show (_ : sProp 𝕄) ⊢ _; iintro ⟨%f, %hf, H⟩; obtain rfl := h.eq_unread hf; iexact H
  · show (_ : sProp 𝕄) ⊢ _; iintro H; iexists _; isplitr; · ipureintro; exact h.read_unread _
    iexact H

section
variable (c : Dev nD) (i : grid2.Coords) (arg3 : Memref sig .tc .vmem S1x512x1024 .f32) (harg3 : arg3.IsWhole) (arg4 : Memref sig .tc .vmem S1x2048x1024 .bf16) (harg4 : arg4.IsWhole) (arg5 : Memref sig .tc .vmem S1x2048x1024 .bf16) (harg5 : arg5.IsWhole) (arg6 : Memref sig .tc .vmem S1024x1024 .bf16) (harg6 : arg6.IsWhole) (arg7 : Memref sig .tc .vmem S1x1024 .f32) (harg7 : arg7.IsWhole) (arg8 : Memref sig .tc .vmem S1x512x1024 .f32) (harg8 : arg8.IsWhole) (arg9 : Memref sig .tc .vmem S512x1024 .bf16) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1024 .f32) (harg12 : arg12.IsWhole)

set_option maxHeartbeats 4000000 in
noncomputable def kernelRun2_A (hc0 : cond2_0 i) (hc1 : ¬cond2_1 i)
    (x0 : Vec F S1x512x1024 .f32) (x1 : Vec F S1x2048x1024 .bf16) (x2 : Vec F S1x2048x1024 .bf16) (x3 : Vec F S1024x1024 .bf16) (x4 : Vec F S1x1024 .f32) :
    Σ' (L5 : List (View.Piece (Elt F) S1x512x1024 .f32)) (LS0 : List (View.Piece (Elt F) S512x1024 .bf16)) (LS1 : List (View.Piece (Elt F) S512x1 .f32)) (LS2 : List (View.Piece (Elt F) S512x1 .f32)), { LS3 : List (View.Piece (Elt F) S512x1024 .f32) //
      ∀ (xi5 : Vec F S1x512x1024 .f32) (E : Set ℕ) (K : PUnit → sProp 𝕄),
        iprop(owns c arg3 fullShare x0 ∗ owns c arg4 fullShare x1 ∗ owns c arg5 fullShare x2 ∗ owns c arg6 fullShare x3 ∗ owns c arg7 fullShare x4 ∗ owns c arg8 fullShare xi5 ∗ (∃ d, owns c arg9 fullShare d) ∗ (∃ d, owns c arg10 fullShare d) ∗ (∃ d, owns c arg11 fullShare d) ∗ (∃ d, owns c arg12 fullShare d)
            ∗ (iprop(owns c arg3 fullShare x0 ∗ owns c arg4 fullShare x1 ∗ owns c arg5 fullShare x2 ∗ owns c arg6 fullShare x3 ∗ owns c arg7 fullShare x4 ∗ owns c arg8 fullShare xi5 ∗ (∃ f, arg9.view.loc c ↦[arg9.view.set]{fullShare} arg9.view.writes (Elt F) f LS0) ∗ (∃ f, arg10.view.loc c ↦[arg10.view.set]{fullShare} arg10.view.writes (Elt F) f LS1) ∗ (∃ f, arg11.view.loc c ↦[arg11.view.set]{fullShare} arg11.view.writes (Elt F) f LS2) ∗ (∃ f, arg12.view.loc c ↦[arg12.view.set]{fullShare} arg12.view.writes (Elt F) f LS3)) -∗ K ⟨⟩))
          ⊢ wp frame (wpE (defs₀ (F := F)) Variants.none c none) E (cc2_kernel i arg3 harg3 arg4 harg4 arg5 harg5 arg6 harg6 arg7 harg7 arg8 harg8 arg9 harg9 arg10 harg10 arg11 harg11 arg12 harg12) K } := by
  refine ⟨[], ?_, ?_, ?_, ?_, fun xi5 E K => ?run⟩
  case run =>
    simp only [cc2_kernel_eq_skeleton]; unfold cc2_kernel_skel
    simp only [k2_part1_eq_skeleton]
    rw [owns_eq_unread harg3, owns_eq_unread harg4, owns_eq_unread harg5, owns_eq_unread harg6, owns_eq_unread harg7, owns_eq_unread harg8]
    unfold owns
    iintro ⟨H0, H1, H2, H3, H4, H5, ⟨%ds0, %fs0, -, HS0⟩, ⟨%ds1, %fs1, -, HS1⟩, ⟨%ds2, %fs2, -, HS2⟩, ⟨%ds3, %fs3, -, HS3⟩, Hk⟩
    sl_exec (disch := first | exact hc0 | exact hc1)
    sl_step
    iapply Hk
    iframe H0 H1 H2 H3 H4 H5
    isplitl [HS0]; · iexists _; iexact HS0
    isplitl [HS1]; · iexists _; iexact HS1
    isplitl [HS2]; · iexists _; iexact HS2
    iexists _; iexact HS3

set_option maxHeartbeats 4000000 in
noncomputable def kernelRun2_B (hc0 : ¬cond2_0 i) (hc1 : ¬cond2_1 i)
    (x0 : Vec F S1x512x1024 .f32) (x1 : Vec F S1x2048x1024 .bf16) (x2 : Vec F S1x2048x1024 .bf16) (x3 : Vec F S1024x1024 .bf16) (x4 : Vec F S1x1024 .f32) (xs0 : Vec F S512x1024 .bf16) (xs1 : Vec F S512x1 .f32) (xs2 : Vec F S512x1 .f32) (xs3 : Vec F S512x1024 .f32) :
    Σ' (L5 : List (View.Piece (Elt F) S1x512x1024 .f32)) (LS1 : List (View.Piece (Elt F) S512x1 .f32)) (LS2 : List (View.Piece (Elt F) S512x1 .f32)), { LS3 : List (View.Piece (Elt F) S512x1024 .f32) //
      ∀ (xi5 : Vec F S1x512x1024 .f32) (E : Set ℕ) (K : PUnit → sProp 𝕄),
        iprop(owns c arg3 fullShare x0 ∗ owns c arg4 fullShare x1 ∗ owns c arg5 fullShare x2 ∗ owns c arg6 fullShare x3 ∗ owns c arg7 fullShare x4 ∗ owns c arg8 fullShare xi5 ∗ owns c arg9 fullShare xs0 ∗ owns c arg10 fullShare xs1 ∗ owns c arg11 fullShare xs2 ∗ owns c arg12 fullShare xs3
            ∗ (iprop(owns c arg3 fullShare x0 ∗ owns c arg4 fullShare x1 ∗ owns c arg5 fullShare x2 ∗ owns c arg6 fullShare x3 ∗ owns c arg7 fullShare x4 ∗ owns c arg8 fullShare xi5 ∗ owns c arg9 fullShare xs0 ∗ (∃ f, arg10.view.loc c ↦[arg10.view.set]{fullShare} arg10.view.writes (Elt F) f LS1) ∗ (∃ f, arg11.view.loc c ↦[arg11.view.set]{fullShare} arg11.view.writes (Elt F) f LS2) ∗ (∃ f, arg12.view.loc c ↦[arg12.view.set]{fullShare} arg12.view.writes (Elt F) f LS3)) -∗ K ⟨⟩))
          ⊢ wp frame (wpE (defs₀ (F := F)) Variants.none c none) E (cc2_kernel i arg3 harg3 arg4 harg4 arg5 harg5 arg6 harg6 arg7 harg7 arg8 harg8 arg9 harg9 arg10 harg10 arg11 harg11 arg12 harg12) K } := by
  refine ⟨[], ?_, ?_, ?_, fun xi5 E K => ?run⟩
  case run =>
    simp only [cc2_kernel_eq_skeleton]; unfold cc2_kernel_skel
    simp only [k2_part1_eq_skeleton]
    rw [owns_eq_unread harg3, owns_eq_unread harg4, owns_eq_unread harg5, owns_eq_unread harg6, owns_eq_unread harg7, owns_eq_unread harg8, owns_eq_unread harg9, owns_eq_unread harg10, owns_eq_unread harg11, owns_eq_unread harg12]
    iintro ⟨H0, H1, H2, H3, H4, H5, HS0, HS1, HS2, HS3, Hk⟩
    sl_exec (disch := first | exact hc0 | exact hc1)
    sl_step
    iapply Hk
    iframe H0 H1 H2 H3 H4 H5 HS0
    isplitl [HS1]; · iexists _; iexact HS1
    isplitl [HS2]; · iexists _; iexact HS2
    iexists _; iexact HS3

set_option maxHeartbeats 4000000 in
noncomputable def kernelRun2_C (hc0 : ¬cond2_0 i) (hc1 : cond2_1 i)
    (x0 : Vec F S1x512x1024 .f32) (x1 : Vec F S1x2048x1024 .bf16) (x2 : Vec F S1x2048x1024 .bf16) (x3 : Vec F S1024x1024 .bf16) (x4 : Vec F S1x1024 .f32) (xs0 : Vec F S512x1024 .bf16) (xs1 : Vec F S512x1 .f32) (xs2 : Vec F S512x1 .f32) (xs3 : Vec F S512x1024 .f32) :
    Σ' (L5 : List (View.Piece (Elt F) S1x512x1024 .f32)) (LS1 : List (View.Piece (Elt F) S512x1 .f32)) (LS2 : List (View.Piece (Elt F) S512x1 .f32)), { LS3 : List (View.Piece (Elt F) S512x1024 .f32) //
      ∀ (E : Set ℕ) (K : PUnit → sProp 𝕄),
        iprop(owns c arg3 fullShare x0 ∗ owns c arg4 fullShare x1 ∗ owns c arg5 fullShare x2 ∗ owns c arg6 fullShare x3 ∗ owns c arg7 fullShare x4 ∗ (∃ d, owns c arg8 fullShare d) ∗ owns c arg9 fullShare xs0 ∗ owns c arg10 fullShare xs1 ∗ owns c arg11 fullShare xs2 ∗ owns c arg12 fullShare xs3
            ∗ (iprop(owns c arg3 fullShare x0 ∗ owns c arg4 fullShare x1 ∗ owns c arg5 fullShare x2 ∗ owns c arg6 fullShare x3 ∗ owns c arg7 fullShare x4 ∗ (∃ f, arg8.view.loc c ↦[arg8.view.set]{fullShare} arg8.view.writes (Elt F) f L5) ∗ owns c arg9 fullShare xs0 ∗ (∃ f, arg10.view.loc c ↦[arg10.view.set]{fullShare} arg10.view.writes (Elt F) f LS1) ∗ (∃ f, arg11.view.loc c ↦[arg11.view.set]{fullShare} arg11.view.writes (Elt F) f LS2) ∗ (∃ f, arg12.view.loc c ↦[arg12.view.set]{fullShare} arg12.view.writes (Elt F) f LS3)) -∗ K ⟨⟩))
          ⊢ wp frame (wpE (defs₀ (F := F)) Variants.none c none) E (cc2_kernel i arg3 harg3 arg4 harg4 arg5 harg5 arg6 harg6 arg7 harg7 arg8 harg8 arg9 harg9 arg10 harg10 arg11 harg11 arg12 harg12) K } := by
  refine ⟨?_, ?_, ?_, ?_, fun E K => ?run⟩
  case run =>
    simp only [cc2_kernel_eq_skeleton]; unfold cc2_kernel_skel
    simp only [k2_part1_eq_skeleton]
    rw [owns_eq_unread harg3, owns_eq_unread harg4, owns_eq_unread harg5, owns_eq_unread harg6, owns_eq_unread harg7, owns_eq_unread harg9, owns_eq_unread harg10, owns_eq_unread harg11, owns_eq_unread harg12]
    unfold owns
    iintro ⟨H0, H1, H2, H3, H4, ⟨%d5, %f5, -, H5⟩, HS0, HS1, HS2, HS3, Hk⟩
    sl_exec (disch := first | exact hc0 | exact hc1)
    sl_step
    iapply Hk
    iframe H0 H1 H2 H3 H4
    isplitl [H5]; · iexists _; iexact H5
    iframe HS0
    isplitl [HS1]; · iexists _; iexact HS1
    isplitl [HS2]; · iexists _; iexact HS2
    iexists _; iexact HS3

end

end Cert.Kernel.Frame

end
-- ==== Proof.K.R2.lean ====
import proofs.«430256_j43482248905221_3_alg».proof.Proof.K.R2Runs

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

abbrev runA (c : Dev nD) (t : Fin cfg2.N) (h0 : t.val % 4 = 0) (h1 : ¬t.val % 4 = 3) :=
  kernelRun2_A (F := F) c (grid2.coords t) (ms2_0 t) (hs2_0 t) (ms2_1 t) (hs2_1 t) (ms2_2 t) (hs2_2 t) (ms2_3 t) (hs2_3 t) (ms2_4 t) (hs2_4 t) (ms2_5 t) (hs2_5 t) scM2_0 (Memref.isWhole_whole _) scM2_1 (Memref.isWhole_whole _) scM2_2 (Memref.isWhole_whole _) scM2_3 (Memref.isWhole_whole _) ((hcond2_0 t).mpr h0) (fun h => h1 ((hcond2_1 t).mp h)) (iblk2 V c 0 t) (iblk2 V c 1 t) (iblk2 V c 2 t) (iblk2 V c 3 t) (iblk2 V c 4 t)
abbrev runB (c : Dev nD) (t : Fin cfg2.N) (h0 : ¬t.val % 4 = 0) (h1 : ¬t.val % 4 = 3) (p : St2 F) :=
  kernelRun2_B (F := F) c (grid2.coords t) (ms2_0 t) (hs2_0 t) (ms2_1 t) (hs2_1 t) (ms2_2 t) (hs2_2 t) (ms2_3 t) (hs2_3 t) (ms2_4 t) (hs2_4 t) (ms2_5 t) (hs2_5 t) scM2_0 (Memref.isWhole_whole _) scM2_1 (Memref.isWhole_whole _) scM2_2 (Memref.isWhole_whole _) scM2_3 (Memref.isWhole_whole _) (fun h => h0 ((hcond2_0 t).mp h)) (fun h => h1 ((hcond2_1 t).mp h)) (iblk2 V c 0 t) (iblk2 V c 1 t) (iblk2 V c 2 t) (iblk2 V c 3 t) (iblk2 V c 4 t) p.2.1 p.2.2.1 p.2.2.2.1 p.2.2.2.2
abbrev runC (c : Dev nD) (t : Fin cfg2.N) (h0 : ¬t.val % 4 = 0) (h1 : t.val % 4 = 3) (p : St2 F) :=
  kernelRun2_C (F := F) c (grid2.coords t) (ms2_0 t) (hs2_0 t) (ms2_1 t) (hs2_1 t) (ms2_2 t) (hs2_2 t) (ms2_3 t) (hs2_3 t) (ms2_4 t) (hs2_4 t) (ms2_5 t) (hs2_5 t) scM2_0 (Memref.isWhole_whole _) scM2_1 (Memref.isWhole_whole _) scM2_2 (Memref.isWhole_whole _) scM2_3 (Memref.isWhole_whole _) (fun h => h0 ((hcond2_0 t).mp h)) ((hcond2_1 t).mpr h1) (iblk2 V c 0 t) (iblk2 V c 1 t) (iblk2 V c 2 t) (iblk2 V c 3 t) (iblk2 V c 4 t) p.2.1 p.2.2.1 p.2.2.2.1 p.2.2.2.2

def stA (c : Dev nD) (t : Fin cfg2.N) (h0 : t.val % 4 = 0) (h1 : ¬t.val % 4 = 3) : St2 F :=
  (VO2_5.read (Elt F) (VO2_5.writes (Elt F) VO2_5.junk (runA V c t h0 h1).1),
   VS2_0.read (Elt F) (VS2_0.writes (Elt F) VS2_0.junk (runA V c t h0 h1).2.1),
   VS2_1.read (Elt F) (VS2_1.writes (Elt F) VS2_1.junk (runA V c t h0 h1).2.2.1),
   VS2_2.read (Elt F) (VS2_2.writes (Elt F) VS2_2.junk (runA V c t h0 h1).2.2.2.1),
   VS2_3.read (Elt F) (VS2_3.writes (Elt F) VS2_3.junk (runA V c t h0 h1).2.2.2.2.1))

def stB (c : Dev nD) (t : Fin cfg2.N) (h0 : ¬t.val % 4 = 0) (h1 : ¬t.val % 4 = 3) (p : St2 F) : St2 F :=
  (VO2_5.read (Elt F) (VO2_5.writes (Elt F) VO2_5.junk (runB V c t h0 h1 p).1),
   p.2.1,
   VS2_1.read (Elt F) (VS2_1.writes (Elt F) VS2_1.junk (runB V c t h0 h1 p).2.1),
   VS2_2.read (Elt F) (VS2_2.writes (Elt F) VS2_2.junk (runB V c t h0 h1 p).2.2.1),
   VS2_3.read (Elt F) (VS2_3.writes (Elt F) VS2_3.junk (runB V c t h0 h1 p).2.2.2.1))

def stC (c : Dev nD) (t : Fin cfg2.N) (h0 : ¬t.val % 4 = 0) (h1 : t.val % 4 = 3) (p : St2 F) : St2 F :=
  (VO2_5.read (Elt F) (VO2_5.writes (Elt F) VO2_5.junk (runC V c t h0 h1 p).1),
   p.2.1,
   VS2_1.read (Elt F) (VS2_1.writes (Elt F) VS2_1.junk (runC V c t h0 h1 p).2.1),
   VS2_2.read (Elt F) (VS2_2.writes (Elt F) VS2_2.junk (runC V c t h0 h1 p).2.2.1),
   VS2_3.read (Elt F) (VS2_3.writes (Elt F) VS2_3.junk (runC V c t h0 h1 p).2.2.2.1))

section
variable (c : Dev nD) (t : Fin cfg2.N)
section
variable (h0 : t.val % 4 = 0) (h1 : ¬t.val % 4 = 3)
theorem scoverA_0 (y : S512x1024.Idx) : ∃ pc ∈ (runA V c t h0 h1).2.1, y ∈ pc.1.set := View.cover_of_tiledL _ S512x1024.size (by sl_kernel_rfl) y
theorem scoverA_1 (y : S512x1.Idx) : ∃ pc ∈ (runA V c t h0 h1).2.2.1, y ∈ pc.1.set := View.cover_of_tiledL _ S512x1.size (by sl_kernel_rfl) y
theorem scoverA_2 (y : S512x1.Idx) : ∃ pc ∈ (runA V c t h0 h1).2.2.2.1, y ∈ pc.1.set := View.cover_of_tiledL _ S512x1.size (by sl_kernel_rfl) y
theorem scoverA_3 (y : S512x1024.Idx) : ∃ pc ∈ (runA V c t h0 h1).2.2.2.2.1, y ∈ pc.1.set := View.cover_of_tiledL _ S512x1024.size (by sl_kernel_rfl) y
end
variable (h0 : ¬t.val % 4 = 0)
section
variable (h1 : ¬t.val % 4 = 3) (p : St2 F)
theorem scoverB_1 (y : S512x1.Idx) : ∃ pc ∈ (runB V c t h0 h1 p).2.1, y ∈ pc.1.set := View.cover_of_tiledL _ S512x1.size (by sl_kernel_rfl) y
theorem scoverB_2 (y : S512x1.Idx) : ∃ pc ∈ (runB V c t h0 h1 p).2.2.1, y ∈ pc.1.set := View.cover_of_tiledL _ S512x1.size (by sl_kernel_rfl) y
theorem scoverB_3 (y : S512x1024.Idx) : ∃ pc ∈ (runB V c t h0 h1 p).2.2.2.1, y ∈ pc.1.set := View.cover_of_tiledL _ S512x1024.size (by sl_kernel_rfl) y
end
variable (h1 : t.val % 4 = 3) (p : St2 F)
theorem scoverC_1 (y : S512x1.Idx) : ∃ pc ∈ (runC V c t h0 h1 p).2.1, y ∈ pc.1.set := View.cover_of_tiledL _ S512x1.size (by sl_kernel_rfl) y
theorem scoverC_2 (y : S512x1.Idx) : ∃ pc ∈ (runC V c t h0 h1 p).2.2.1, y ∈ pc.1.set := View.cover_of_tiledL _ S512x1.size (by sl_kernel_rfl) y
theorem scoverC_3 (y : S512x1024.Idx) : ∃ pc ∈ (runC V c t h0 h1 p).2.2.2.1, y ∈ pc.1.set := View.cover_of_tiledL _ S512x1024.size (by sl_kernel_rfl) y
theorem coverC_5 (y : S1x512x1024.Idx) : ∃ pc ∈ (runC V c t h0 h1 p).1, y ∈ pc.1.set := View.cover_of_tiledL _ S1x512x1024.size (by sl_kernel_rfl) y
end

def outsAt2 (c : Dev nD) : (n : ℕ) → n < cfg2.N → St2 F
  | 0, hn => stA V c ⟨0, hn⟩ (Nat.zero_mod _) (fun h => by (try dsimp only at h); omega)
  | n + 1, hn =>
    if h0 : (n + 1) % 4 = 0 then
      if h1 : (n + 1) % 4 = 3 then False.elim (by omega)
      else stA V c ⟨n + 1, hn⟩ h0 h1
    else
      if h1 : (n + 1) % 4 = 3 then stC V c ⟨n + 1, hn⟩ h0 h1 (outsAt2 c n (Nat.lt_of_succ_lt hn))
      else stB V c ⟨n + 1, hn⟩ h0 h1 (outsAt2 c n (Nat.lt_of_succ_lt hn))

theorem outsAt2_A (c : Dev nD) (t : Fin cfg2.N) (h0 : t.val % 4 = 0) (h1 : ¬t.val % 4 = 3) : outsAt2 V c t.val t.isLt = stA V c t h0 h1 := by
  obtain ⟨n, hn⟩ := t
  cases n with
  | zero => exact rfl
  | succ n => exact (dif_pos h0).trans ((dif_neg h1).trans rfl)

theorem outsAt2_B (c : Dev nD) (t : Fin cfg2.N) (h0 : ¬t.val % 4 = 0) (h1 : ¬t.val % 4 = 3) :
    outsAt2 V c t.val t.isLt = stB V c t h0 h1 (outsAt2 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_neg h1).trans rfl)

theorem outsAt2_C (c : Dev nD) (t : Fin cfg2.N) (h0 : ¬t.val % 4 = 0) (h1 : t.val % 4 = 3) :
    outsAt2 V c t.val t.isLt = stC V c t h0 h1 (outsAt2 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_pos h1).trans rfl)

/-- Pieces that cover a buffer leave it at what they alone write. -/
theorem owns_cover {c : Dev nD} {s : Shape} {e : EltTy} (v : View sig .tc .vmem s e) {M : Memref sig .tc .vmem s e} {L : List (View.Piece (Elt F) s e)} (hL : ∀ y : s.Idx, ∃ pc ∈ L, y ∈ pc.1.set) :
    (iprop(∃ f, M.view.loc c ↦[M.view.set]{fullShare} M.view.writes (Elt F) f L) : sProp 𝕄) ⊢ owns c M fullShare (v.read (Elt F) (v.writes (Elt F) v.junk L)) := by
  iintro ⟨%f, H⟩; unfold owns; iexists _; isplitr; swap; · iexact H
  ipureintro; exact View.read_writes_of_cover _ _ _ _ _ hL

def Phi2 (c : Dev nD) (S : sProp 𝕄) : sProp 𝕄 :=
  iprop((S ∗ Pipeline.scopedRestBut spec2 c [cc2_scratch0, cc2_scratch1, cc2_scratch2, cc2_scratch3]) ∗ (∃ r, prngReg c r))

def scrAt (c : Dev nD) (p : St2 F) : sProp 𝕄 :=
  iprop(owns c scM2_0 fullShare p.2.1 ∗ owns c scM2_1 fullShare p.2.2.1 ∗ owns c scM2_2 fullShare p.2.2.2.1 ∗ owns c scM2_3 fullShare p.2.2.2.2)

theorem PhiA2 (c : Dev nD) :
    (Pipeline.ΦA spec2 c : sProp 𝕄) = Phi2 c iprop((∃ d, owns c scM2_0 fullShare d) ∗ (∃ d, owns c scM2_1 fullShare d) ∗ (∃ d, owns c scM2_2 fullShare d) ∗ (∃ d, owns c scM2_3 fullShare d)) := by
  unfold Pipeline.ΦA Phi2
  rw [Pipeline.scopedRest_split_of_list spec2 c [cc2_scratch0, cc2_scratch1, cc2_scratch2, cc2_scratch3] (by decide) (by decide)]
  simp only [scM2_0, scM2_1, scM2_2, scM2_3, owns_whole]
  rfl

def PhiS (c : Dev nD) : (n : ℕ) → n ≤ cfg2.N → sProp 𝕄
  | 0, _ => Pipeline.ΦA spec2 c
  | n + 1, hn => Phi2 c (scrAt c (outsAt2 V c n hn))

theorem PhiS_pos (c : Dev nD) (t : Fin cfg2.N) (hz : t.val ≠ 0) :
    PhiS V c t.val (Nat.le_of_lt t.isLt) = Phi2 c (scrAt c (outsAt2 V c (t.val - 1) (Nat.lt_of_le_of_lt (Nat.sub_le _ _) t.isLt))) := by
  obtain ⟨_ | n, hn⟩ := t
  · exact absurd rfl hz
  · rfl

/-- The invariant at any position entails the one that forgets the scratch contents. -/
theorem PhiS_any (c : Dev nD) : ∀ (n : ℕ) (h : n ≤ cfg2.N), PhiS V c n h ⊢ Pipeline.ΦA spec2 c
  | 0, _ => .rfl
  | n + 1, hn => by
    rw [PhiA2]; show Phi2 c (scrAt c (outsAt2 V c n hn)) ⊢ _; unfold Phi2 scrAt
    exact sep_mono_left (sep_mono_left (sep_mono (exists_intro _) (sep_mono (exists_intro _) (sep_mono (exists_intro _) (exists_intro _)))))

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => (outsAt2 V c t.val t.isLt).1
  Φ t := PhiS V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem after2_5 (c : Dev nD) (t : Fin cfg2.N) : (dat2 V c).after 5 t = (outsAt2 V c t.val t.isLt).1 := rfl

theorem before2_0 (c : Dev nD) (t : Fin cfg2.N) (d) : (dat2 V c).before 0 t d = iblk2 V c 0 t :=
  (dat2 V c).before_in_eq_fetched 0 rfl (fun _ => rfl) (fun _ _ _ => rfl) (fun _ => rfl) t d
theorem before2_1 (c : Dev nD) (t : Fin cfg2.N) (d) : (dat2 V c).before 1 t d = iblk2 V c 1 t :=
  (dat2 V c).before_in_eq_fetched 1 rfl (fun _ => rfl) (fun _ _ _ => rfl) (fun _ => rfl) t d
theorem before2_2 (c : Dev nD) (t : Fin cfg2.N) (d) : (dat2 V c).before 2 t d = iblk2 V c 2 t :=
  (dat2 V c).before_in_eq_fetched 2 rfl (fun _ => rfl) (fun _ _ _ => rfl) (fun _ => rfl) t d
theorem before2_3 (c : Dev nD) (t : Fin cfg2.N) (d) : (dat2 V c).before 3 t d = iblk2 V c 3 t :=
  (dat2 V c).before_in_eq_fetched 3 rfl (fun _ => rfl) (fun _ _ _ => rfl) (fun _ => rfl) t d
theorem before2_4 (c : Dev nD) (t : Fin cfg2.N) (d) : (dat2 V c).before 4 t d = iblk2 V c 4 t :=
  (dat2 V c).before_in_eq_fetched 4 rfl (fun _ => rfl) (fun _ _ _ => rfl) (fun _ => rfl) t d

theorem idle2_5 : ∀ t : Fin cfg2.N, ¬t.val % 4 = 3 → cfg2.idle 5 (grid2.coords t) = true ∧ (cfg2.win 5).flush t = false := by decide +kernel
theorem live2_5 : ∀ t : Fin cfg2.N, t.val % 4 = 3 → cfg2.idle 5 (grid2.coords t) = false := by decide +kernel

set_option maxHeartbeats 8000000 in
/-- By cases on the tile index: the reset case forgets what the scratch held, the other two continue from it. -/
theorem sound_body2 (c : Dev nD) (t : Fin cfg2.N) :
    iprop(PhiS V c t.val (Nat.le_of_lt t.isLt) ∗ (dat2 V c).owesAt () t.castSucc
      ∗ (∃ d, owns c (ms2_0 t) fullShare ((dat2 V c).before 0 t d))
      ∗ (∃ d, owns c (ms2_1 t) fullShare ((dat2 V c).before 1 t d))
      ∗ (∃ d, owns c (ms2_2 t) fullShare ((dat2 V c).before 2 t d))
      ∗ (∃ d, owns c (ms2_3 t) fullShare ((dat2 V c).before 3 t d))
      ∗ (∃ d, owns c (ms2_4 t) fullShare ((dat2 V c).before 4 t d))
      ∗ (∃ d, owns c (ms2_5 t) fullShare ((dat2 V c).before 5 t d)))
    ⊢ wp frame (wpE (defs₀ (F := F)) Variants.none c none) Set.univ (bodyAt2 t) (fun _ => iprop(Phi2 c (scrAt c (outsAt2 V c t.val t.isLt)) ∗ (dat2 V c).owesAt () t.castSucc
      ∗ owns c (ms2_0 t) fullShare (iblk2 V c 0 t) ∗ owns c (ms2_1 t) fullShare (iblk2 V c 1 t) ∗ owns c (ms2_2 t) fullShare (iblk2 V c 2 t) ∗ owns c (ms2_3 t) fullShare (iblk2 V c 3 t) ∗ owns c (ms2_4 t) fullShare (iblk2 V c 4 t) ∗ (dat2 V c).leavesExact 5 t)) := by
  unfold bodyAt2
  simp only [before2_0, before2_1, before2_2, before2_3, before2_4]
  by_cases h1 : t.val % 4 = 3
  · have h0 : ¬t.val % 4 = 0 := by omega
    rw [show (dat2 V c).leavesExact 5 t = owns c (ms2_5 t) fullShare ((dat2 V c).after 5 t) from by
      unfold Dat.leavesExact; rw [live2_5 t h1], after2_5,
      outsAt2_C V c t h0 h1, PhiS_pos V c t fun h => h0 (by rw [h])]
    unfold stC scrAt Phi2; dsimp only
    iintro ⟨⟨⟨⟨HS0, HS1, HS2, HS3⟩, Hoth⟩, Hg⟩, Ho, ⟨%d0, H0⟩, ⟨%d1, H1⟩, ⟨%d2, H2⟩, ⟨%d3, H3⟩, ⟨%d4, H4⟩, ⟨%d5, H5⟩⟩
    iapply ((runC V c t h0 h1 _).2.2.2.2 Set.univ _)
    iframe H0 H1 H2 H3 H4
    isplitl [H5]; · iexists _; iexact H5
    isplitl [HS0]; · iexact HS0
    iframe HS1 HS2 HS3
    iintro ⟨H0, H1, H2, H3, H4, H5, HS0, HS1, HS2, HS3⟩
    ihave H5 := owns_cover VO2_5 (coverC_5 V c t h0 h1 _) $$ H5
    ihave HS1 := owns_cover VS2_1 (scoverC_1 V c t h0 h1 _) $$ HS1
    ihave HS2 := owns_cover VS2_2 (scoverC_2 V c t h0 h1 _) $$ HS2
    ihave HS3 := owns_cover VS2_3 (scoverC_3 V c t h0 h1 _) $$ HS3
    iframe
  · rw [Dat.leavesExact_idle (dat2 V c) 5 t (idle2_5 t h1).1 (idle2_5 t h1).2]
    by_cases h0 : t.val % 4 = 0
    · rw [outsAt2_A V c t h0 h1]
      unfold stA scrAt; dsimp only
      refine (sep_mono_left (PhiS_any V c _ _)).trans ?_
      rw [PhiA2]; unfold Phi2
      iintro ⟨⟨⟨⟨HS0, HS1, HS2, HS3⟩, Hoth⟩, Hg⟩, Ho, ⟨%d0, H0⟩, ⟨%d1, H1⟩, ⟨%d2, H2⟩, ⟨%d3, H3⟩, ⟨%d4, H4⟩, ⟨%d5, H5⟩⟩
      iapply ((runA V c t h0 h1).2.2.2.2.2 _ Set.univ _)
      iframe H0 H1 H2 H3 H4 H5 HS0 HS1 HS2 HS3
      iintro ⟨H0, H1, H2, H3, H4, H5, HS0, HS1, HS2, HS3⟩
      ihave HS0 := owns_cover VS2_0 (scoverA_0 V c t h0 h1) $$ HS0
      ihave HS1 := owns_cover VS2_1 (scoverA_1 V c t h0 h1) $$ HS1
      ihave HS2 := owns_cover VS2_2 (scoverA_2 V c t h0 h1) $$ HS2
      ihave HS3 := owns_cover VS2_3 (scoverA_3 V c t h0 h1) $$ HS3
      iframe Hoth Hg Ho H0 H1 H2 H3 H4 HS0 HS1 HS2 HS3
      iexists _; iexact H5
    · rw [outsAt2_B V c t h0 h1, PhiS_pos V c t fun h => h0 (by rw [h])]
      unfold stB scrAt Phi2; dsimp only
      iintro ⟨⟨⟨⟨HS0, HS1, HS2, HS3⟩, Hoth⟩, Hg⟩, Ho, ⟨%d0, H0⟩, ⟨%d1, H1⟩, ⟨%d2, H2⟩, ⟨%d3, H3⟩, ⟨%d4, H4⟩, ⟨%d5, H5⟩⟩
      iapply ((runB V c t h0 h1 _).2.2.2.2 _ Set.univ _)
      iframe H0 H1 H2 H3 H4 H5
      isplitl [HS0]; · iexact HS0
      iframe HS1 HS2 HS3
      iintro ⟨H0, H1, H2, H3, H4, H5, HS0, HS1, HS2, HS3⟩
      ihave HS1 := owns_cover VS2_1 (scoverB_1 V c t h0 h1 _) $$ HS1
      ihave HS2 := owns_cover VS2_2 (scoverB_2 V c t h0 h1 _) $$ HS2
      ihave HS3 := owns_cover VS2_3 (scoverB_3 V c t h0 h1 _) $$ HS3
      iframe Hoth Hg Ho H0 H1 H2 H3 H4 HS0 HS1 HS2 HS3
      iexists _; iexact H5

theorem body_obligation2 (c : Dev nD) : BodyObligation (dat2 (F := F) V c) (defs₀ (F := F)) Variants.none () Set.univ := fun t => by
  rw [bigSep_W2, bigSep_W2]
  exact sound_body2 V c t

theorem hin2 (c : Dev nD) : Pipeline.ΦA spec2 c ⊢ (dat2 V c).Φ 0 := .rfl

theorem hout2 (c : Dev nD) : (dat2 V c).Φ (Fin.last cfg2.N) ⊢ Pipeline.ΦA spec2 c := PhiS_any V c (Fin.last cfg2.N).val _

end Cert.Kernel.Frame

end
-- ==== Proof.K.Launch.lean ====
import proofs.«430256_j43482248905221_3_alg».proof.Proof.K.R0
import proofs.«430256_j43482248905221_3_alg».proof.Proof.K.R1
import proofs.«430256_j43482248905221_3_alg».proof.Proof.K.R2
import proofs.«430256_j43482248905221_3_alg».proof.Proof.Gen.Kernel.Regions

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev W0 : Dev nD → Valuation τ sig (Elt F) := fun c b => (s₀ m ρ).mem ((c : Dev nD), b)

abbrev W1 : Dev nD → Valuation τ sig (Elt F) := fun c => StableHlo.after hostOps0 (W0 m ρ c)

abbrev V1 : (c : Dev nD) → (b : Ref sig .tc) → Buf (Elt F) ((c : Thread nD τ).loc b) := fun c b => W1 m ρ c b

def W2 (c : Dev nD) : Valuation τ sig (Elt F) :=
  Pipeline.withArrays spec0 c (W1 m ρ c) fun w => (dat0 (V1 m ρ) c).arrAt w cfg0.N
theorem W2_of_ne (c : Dev nD) (b : Ref sig .tc) (hb : ∀ w, Pipeline.arrRef spec0 w ≠ b) :
    W2 m ρ c (Proc.devRef .tc b) = W1 m ρ c (Proc.devRef .tc b) :=
  Pipeline.withArrays_of_ne spec0 c _ _ b hb

abbrev W3 : Dev nD → Valuation τ sig (Elt F) := fun c => StableHlo.after hostOps1 (W2 m ρ c)

abbrev V3 : (c : Dev nD) → (b : Ref sig .tc) → Buf (Elt F) ((c : Thread nD τ).loc b) := fun c b => W3 m ρ c b

def W4 (c : Dev nD) : Valuation τ sig (Elt F) :=
  Pipeline.withArrays spec1 c (W3 m ρ c) fun w => (dat1 (V3 m ρ) c).arrAt w cfg1.N
theorem W4_of_ne (c : Dev nD) (b : Ref sig .tc) (hb : ∀ w, Pipeline.arrRef spec1 w ≠ b) :
    W4 m ρ c (Proc.devRef .tc b) = W3 m ρ c (Proc.devRef .tc b) :=
  Pipeline.withArrays_of_ne spec1 c _ _ b hb

abbrev W5 : Dev nD → Valuation τ sig (Elt F) := fun c => StableHlo.after hostOps2 (W4 m ρ c)

abbrev V5 : (c : Dev nD) → (b : Ref sig .tc) → Buf (Elt F) ((c : Thread nD τ).loc b) := fun c b => W5 m ρ c b

def W6 (c : Dev nD) : Valuation τ sig (Elt F) :=
  Pipeline.withArrays spec2 c (W5 m ρ c) fun w => (dat2 (V5 m ρ) c).arrAt w cfg2.N
theorem W6_arr (c : Dev nD) (w : Fin cfg2.W) :
    W6 m ρ c (Proc.devRef .tc (Pipeline.arrRef spec2 w)) = (dat2 (V5 m ρ) c).arrAt w cfg2.N :=
  Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) :=
  Pipeline.withArrays_of_ne spec2 c _ _ b hb

theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
theorem W3_of (c : Dev nD) (r : Ref sig .tc) (h : r ∉ hostOps1_W) : W3 m ρ c (Proc.devRef .tc r) = W2 m ρ c (Proc.devRef .tc r) :=
  StableHlo.after_of_writes_sub hostOps1 _ hostOps1_writes h
theorem W5_of (c : Dev nD) (r : Ref sig .tc) (h : r ∉ hostOps2_W) : W5 m ρ c (Proc.devRef .tc r) = W4 m ρ c (Proc.devRef .tc r) :=
  StableHlo.after_of_writes_sub hostOps2 _ hostOps2_writes h

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- A buffer that no item of the program writes ends as launched. -/
theorem kept {c : Dev nD} {f : Valuation τ sig (Elt F)} (h : ∀ b ∈ Pipeline.ucRefs τ sig, f b = W6 m ρ c b) (r : Ref sig .tc)
    (hr : ¬ (Proc.devRef .tc r : DevRef τ sig).isScoped
      ∧ ((∀ w, Pipeline.arrRef spec2 w ≠ r) ∨ ∃ w, (cfg2.win w).isOut = false ∧ Pipeline.arrRef spec2 w = r)
      ∧ r ∉ hostOps2_W ∧ (∀ w, Pipeline.arrRef spec1 w ≠ r) ∧ r ∉ hostOps1_W ∧ (∀ w, Pipeline.arrRef spec0 w ≠ r) ∧ r ∉ hostOps0_W) :
    f (Proc.devRef .tc r) = m ((c : Thread nD τ).loc r) :=
  (h _ (mem_uc r hr.1)).trans <|
    (hr.2.1.elim (W6_of_ne m ρ c r) fun ⟨w, hw, e⟩ =>
      e ▸ (W6_arr m ρ c w).trans (((dat2 (V5 m ρ) c).arrAt_in w hw _).trans (A_eq2 (V5 m ρ) c w))).trans <|
    (W5_of m ρ c r hr.2.2.1).trans <| (W4_of_ne m ρ c r hr.2.2.2.1).trans <| (W3_of m ρ c r hr.2.2.2.2.1).trans <|
    (W2_of_ne m ρ c r hr.2.2.2.2.2.1).trans (W1_of m ρ c r hr.2.2.2.2.2.2)

theorem W2_main_v11 (c : Dev nD) : W2 m ρ c (Proc.devRef .tc main_v11) = (dat0 (V1 m ρ) c).arrAt 3 cfg0.N :=
  Pipeline.withArrays_arr spec0 launch0.win.arr_inj c _ _ 3
theorem W4_main_v13 (c : Dev nD) : W4 m ρ c (Proc.devRef .tc main_v13) = (dat1 (V3 m ρ) c).arrAt 3 cfg1.N :=
  Pipeline.withArrays_arr spec1 launch1.win.arr_inj c _ _ 3
theorem W6_main_v15 (c : Dev nD) : W6 m ρ c (Proc.devRef .tc main_v15) = (dat2 (V5 m ρ) c).arrAt 5 cfg2.N := W6_arr m ρ c 5

def pdats : (p : Fin 3) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
abbrev 𝒱₀ : Variants := Variants.none

abbrev L : GSem nD τ sig → Finset Unit := fun _ => ∅
abbrev lv : GSem nD τ sig → Unit → ℕ := fun _ _ => 0

abbrev R (c : Dev nD) : sProp 𝕄 := iprop((∃ r, prngReg c r) ∗ ∃ W, owes (c : Thread nD τ) (0 : CellTallies nD τ sig Unit) W)

abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (List.forall_iff_forall_mem.mp hfresh) W R

set_option backward.isDefEq.respectTransparency.types false in
def reg (p : Fin 3) (la : Pipeline.LaunchFacts (nD := nD) (τ := τ) cfgs p) (Wi : Dev nD → Valuation τ sig (Elt F))
    (hb : ∀ c, BodyObligation (pdats m ρ p c) defs₀ 𝒱₀ () Set.univ)
    (hq : ∀ c w, (pdats m ρ p c).q w = fullShare) (h0 : ∀ c t, (pdats m ρ p c).owed t = 0)
    (hR : ∀ c, (pdats m ρ p c).recorded 0 = Set.univ)
    (hA : ∀ c w, (pdats m ρ p c).A w = Wi c (Proc.devRef .tc (Pipeline.arrRef (cfgs p).spec w)))
    (hi : ∀ c, Pipeline.ΦA (cfgs p).spec c ⊢ (pdats m ρ p c).Φ 0)
    (ho : ∀ c, (pdats m ρ p c).Φ (Fin.last (cfgs p).N) ⊢ Pipeline.ΦA (cfgs p).spec c) :
    Pipeline.RegionSeg _ _ (pdats m ρ) () defs₀ 𝒱₀ L lv p where
  win := la.win.to₀
  block_pos := la.block_pos
  stage_whole := la.stage_whole
  K := PEmpty
  osem k := k.elim
  ho := Pipeline.OwnSemFacts.none _
  hbody c := (hb c).loose
  hwaits := Pipeline.hwaits_of_owed_zero _ _ _ _ L lv p h0
  pre c := iprop(StableHlo.held (c : Thread nD τ) (Pipeline.ucRefs τ sig) (Wi c) ∗ R c)
  post c := iprop(StableHlo.held (c : Thread nD τ) (Pipeline.ucRefs τ sig) (Pipeline.withArrays (cfgs p).spec c (Wi c) ((pdats m ρ p c).arrAt · (cfgs p).N)) ∗ R c)
  X c := iprop(∃ r, prngReg c r)
  Y c := iprop(∃ r, prngReg c r)
  Z c := Pipeline.unscopedRest (cfgs p).spec c fun b => Wi c b
  hentry c := by
    rw [Pipeline.ownSems0_none]
    have hsplit := Pipeline.arrays_of_unscopedBufs (p := p) _ _ (pdats m ρ) la.win la.arr_whole c ((pdats m ρ p c).share_full (hq c)) (fun b => Wi c b) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin Pipeline.Dat.bound; rw [h0, hR]
      icases HO with ⟨%W, HO⟩; iexists W; isplitr; · ipureintro; exact fun _ _ => Or.inl trivial
      iexact HO
    isplitl [Hp]; · iexact Hp
    iexact Hrest
  hin c := by
    refine .trans ?_ (hi c); unfold Pipeline.ΦA
    iintro ⟨Hp, -, Hr⟩
    isplitl [Hr]; · iexact Hr
    iexact Hp
  hout c := by
    rw [Pipeline.ownSems0_none]; refine (ho c).trans ?_; unfold Pipeline.ΦA
    iintro ⟨Hr, Hp⟩
    isplitl [Hp]; · iexact Hp
    isplitr; · iempintro
    iexact Hr
  hexit c := by
    have hjoin := Pipeline.unscopedBufs_of_arrays (p := p) _ _ la.win la.arr_whole c (pdats m ρ) ((pdats m ρ p c).share_full (hq c)) (fun b => Wi c b) (fun b => Pipeline.withArrays _ c (Wi c) ((pdats m ρ p c).arrAt · (cfgs p).N) b) _
      (fun w => (Pipeline.withArrays_arr _ la.win.arr_inj c (Wi c) _ w).symm)
      fun b hb => Pipeline.withArrays_of_ne _ c _ _ b fun w e => hb (Finset.mem_image.mpr ⟨w, Finset.mem_univ _, e⟩)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin; rw [h0]
    icases HO with ⟨%W, -, HO⟩; iexists W; iexact HO

def reg0 := reg m ρ 0 launch0 (W1 m ρ) (body_obligation0 (V1 m ρ)) (fun _ _ => rfl) (fun _ _ => rfl) (fun _ => rfl) (fun _ _ => rfl) (fun _ => .rfl) fun _ => .rfl
def reg1 := reg m ρ 1 launch1 (W3 m ρ) (body_obligation1 (V3 m ρ)) (fun _ _ => rfl) (fun _ _ => rfl) (fun _ => rfl) (fun _ _ => rfl) (fun _ => .rfl) fun _ => .rfl
def reg2 := reg m ρ 2 launch2 (W5 m ρ) (body_obligation2 (V5 m ρ)) (fun _ _ => rfl) (fun _ _ => rfl) (fun _ => rfl) (fun _ _ => rfl) (hin2 (V5 m ρ)) (hout2 (V5 m ρ))

abbrev segs : List (Pipeline.Seg _ _ (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ) ]

theorem main_run (c : Dev nD) : main (F := F) c = Pipeline.Seg.run (segs m ρ) := (main_chain c).trans (by chain_rfl)

set_option backward.isDefEq.respectTransparency.types false in
theorem run_all : θ_run defs (onTc (τ := τ) (main (F := F))) ⟨m, fun _ => 0, ρ⟩ (fun r => ∀ c : Dev nD,
      ∀ b ∈ Pipeline.ucRefs τ sig, r.2.mem ((c : Thread nD τ).1, b) = W6 m ρ c b) :=
  Pipeline.θ_run_regions_kit _ _ (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c))
    (Tₙ := fun c => iprop(StableHlo.held (c : Thread nD τ) (Pipeline.ucRefs τ sig) (W6 m ρ c) ∗ ∃ r, prngReg c r))
    (hch := ⟨fun _ => .rfl, fun _ => .rfl, fun _ => .rfl, fun _ => .rfl, fun _ => .rfl, fun _ => .rfl, fun _ => sep_assoc'⟩)
    (hinit := by
      refine Pipeline.initEach L lv fun c => ?_
      erw [Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h => h)

theorem run_value : θ_run defs (onTc (τ := τ) (main (F := F))) ⟨m, fun _ => 0, ρ⟩ (fun r => ∀ c : Dev nD,
      r.2.mem ((c.tc : Thread nD τ).loc main_v15) = W6 m ρ c (Proc.devRef .tc main_v15)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c =>
    ⟨h c _ (mem_uc main_v15 (by decide)),
      kept m ρ (h c) main_arg0 (by decide),
      kept m ρ (h c) main_arg1 (by decide),
      kept m ρ (h c) main_arg2 (by decide),
      kept m ρ (h c) main_arg3 (by decide),
      kept m ρ (h c) main_arg4 (by decide),
      kept m ρ (h c) main_arg5 (by decide),
      kept m ρ (h c) main_arg6 (by decide),
      kept m ρ (h c) main_arg7 (by decide),
      kept m ρ (h c) main_arg8 (by decide)⟩) (run_all m ρ)

protected theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => (h c).2) (run_value m ρ)

end Cert.Kernel.Frame

end
-- ==== Proof.KI.R0.lean ====
import proofs.«430256_j43482248905221_3_alg».proof.Proof.Gen.KernelIdeal.Launch
import proofs.«430256_j43482248905221_3_alg».proof.Proof.Gen.KernelIdeal.Skeleton
import proofs.«430256_j43482248905221_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev r0_x : Rect S2048x1024 := Rect.unit (s := S2048x1024) ![0, 0] S2048x1024.size inb_S2048x1024_S2048x1024_0_0

def out0_3 (x0 : Vec F S2048x1024 .f32) (x1 : Vec F S1024x1024 .bf16) (x2 : Vec F S1x1024 .f32) : Vec F S2048x1024 .bf16 :=
  View.canon [⟨r0_x, k0_pay1 (View.ld x0 r0_x) (View.ld x1 (Rect.unit (s := S1024x1024) ![0, 0] S1024x1024.size inb_S1024x1024_S1024x1024_0_0))
    (View.ld x2 (Rect.unit (s := S1x1024) ![0, 0] S1x1024.size inb_S1x1024_S1x1024_0_0))⟩]

theorem sound_kernel0 (c : Dev nD) (E : Set ℕ) (i : grid0.Coords) (arg1 : Memref sig .tc .vmem S2048x1024 .f32) (harg1 : arg1.IsWhole) (arg2 : Memref sig .tc .vmem S1024x1024 .bf16) (harg2 : arg2.IsWhole) (arg3 : Memref sig .tc .vmem S1x1024 .f32) (harg3 : arg3.IsWhole) (arg4 : Memref sig .tc .vmem S2048x1024 .bf16) (harg4 : arg4.IsWhole)
    (x0 : Vec F S2048x1024 .f32) (x1 : Vec F S1024x1024 .bf16) (x2 : Vec F S1x1024 .f32) (K : PUnit → sProp 𝕄) :
    iprop(owns c.tc arg1 fullShare x0 ∗ owns c.tc arg2 fullShare x1 ∗ owns c.tc arg3 fullShare x2 ∗ (∃ d, owns c.tc arg4 fullShare d)
        ∗ (iprop(owns c.tc arg1 fullShare x0 ∗ owns c.tc arg2 fullShare x1 ∗ owns c.tc arg3 fullShare x2 ∗ owns c.tc arg4 fullShare (out0_3 x0 x1 x2)) -∗ K ⟨⟩))
      ⊢ wp frame (wpE (defs₀ (F := F)) Variants.none c none) E (cc0__proj_kernel i arg1 harg1 arg2 harg2 arg3 harg3 arg4 harg4) K := by
  simp only [cc0__proj_kernel_eq_skeleton]; unfold cc0__proj_kernel_skel owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (View.cover_of_tiled _ S2048x1024.size (by rfl))

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem before0_0 (c : Dev nD) (t : Fin cfg0.N) (d) : (dat0 V c).before 0 t d = iblk0 V c 0 t :=
  (dat0 V c).before_in_eq_fetched 0 rfl (fun _ => rfl) (fun _ _ _ => rfl) (fun _ => rfl) t d
theorem before0_1 (c : Dev nD) (t : Fin cfg0.N) (d) : (dat0 V c).before 1 t d = iblk0 V c 1 t :=
  (dat0 V c).before_in_eq_fetched 1 rfl (fun _ => rfl) (fun _ _ _ => rfl) (fun _ => rfl) t d
theorem before0_2 (c : Dev nD) (t : Fin cfg0.N) (d) : (dat0 V c).before 2 t d = iblk0 V c 2 t :=
  (dat0 V c).before_in_eq_fetched 2 rfl (fun _ => rfl) (fun _ _ _ => rfl) (fun _ => rfl) t d

theorem body_obligation0 (c : Dev nD) : BodyObligation (dat0 (F := F) V c) (defs₀ (F := F)) Variants.none () Set.univ := fun t => by
  rw [bigSep_W0, bigSep_W0]
  simp only [before0_0, before0_1, before0_2]
  rw [show (dat0 V c).owesAt () t.succ = (dat0 V c).owesAt () t.castSucc from rfl]
  dsimp only [dat0]
  show _ ⊢ wp _ _ _ (bodyAt0 t) _
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  iframe H0 H1 H2
  isplitl [H3]; · iexists _; iexact H3
  iintro ⟨H0, H1, H2, H3⟩
  iframe

end Cert.KernelIdeal.Frame

end
-- ==== Proof.KI.R1.lean ====
import proofs.«430256_j43482248905221_3_alg».proof.Proof.KI.R0

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.ProofMode Idealize.SL.Sem
open Idealize.ShloMosaic.Pipeline (Dat BodyObligation)

variable {F : FTy → Type} [FloatOps F]

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

-- region 1 runs region 0's body, so its output block is the same function of its three input blocks
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out0_3 (iblk1 V c 0 t) (iblk1 V c 1 t) (iblk1 V c 2 t)
  Φ _ := Pipeline.ΦA spec1 c
  q _ := fullShare
  owed _ := 0

theorem before1_0 (c : Dev nD) (t : Fin cfg1.N) (d) : (dat1 V c).before 0 t d = iblk1 V c 0 t :=
  (dat1 V c).before_in_eq_fetched 0 rfl (fun _ => rfl) (fun _ _ _ => rfl) (fun _ => rfl) t d
theorem before1_1 (c : Dev nD) (t : Fin cfg1.N) (d) : (dat1 V c).before 1 t d = iblk1 V c 1 t :=
  (dat1 V c).before_in_eq_fetched 1 rfl (fun _ => rfl) (fun _ _ _ => rfl) (fun _ => rfl) t d
theorem before1_2 (c : Dev nD) (t : Fin cfg1.N) (d) : (dat1 V c).before 2 t d = iblk1 V c 2 t :=
  (dat1 V c).before_in_eq_fetched 2 rfl (fun _ => rfl) (fun _ _ _ => rfl) (fun _ => rfl) t d

theorem body_obligation1 (c : Dev nD) : BodyObligation (dat1 (F := F) V c) (defs₀ (F := F)) Variants.none () Set.univ := fun t => by
  rw [bigSep_W1, bigSep_W1]
  simp only [before1_0, before1_1, before1_2]
  rw [show (dat1 V c).owesAt () t.succ = (dat1 V c).owesAt () t.castSucc from rfl]
  dsimp only [dat1]
  show _ ⊢ wp _ _ _ (cc0__proj_kernel (grid1.coords t) _ (hstage1_0 _) _ (hstage1_1 _) _ (hstage1_2 _) _ (hstage1_3 _)) _
  iintro ⟨HΦ, Ho, ⟨%d0, H0⟩, ⟨%d1, H1⟩, ⟨%d2, H2⟩, ⟨%d3, H3⟩⟩
  iapply (sound_kernel0 c Set.univ _ _ _ _ _ _ _ _ _ (iblk1 V c 0 t) (iblk1 V c 1 t) (iblk1 V c 2 t) _)
  iframe H0 H1 H2
  isplitl [H3]; · iexists _; iexact H3
  iintro ⟨H0, H1, H2, H3⟩
  iframe

end Cert.KernelIdeal.Frame

end
-- ==== Proof.KI.R2Runs.lean ====
import proofs.«430256_j43482248905221_3_alg».proof.Proof.Gen.KernelIdeal.Launch
import proofs.«430256_j43482248905221_3_alg».proof.Proof.Gen.KernelIdeal.Skeleton
import proofs.«430256_j43482248905221_3_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev St2 (F : FTy → Type) [FloatOps F] := Vec F S1x512x1024 .f32 × Vec F S512x1024 .bf16 × Vec F S512x1 .f32 × Vec F S512x1 .f32 × Vec F S512x1024 .f32

abbrev cond2_0 (i : grid2.Coords) : Prop := (Scalar.cmpi .ne (Scalar.extui (Scalar.cmpi .eq (BitVec.ofNat 32 (i 2).val) 0#32)) 0#32) = 1#1
theorem hcond2_0 : ∀ t : Fin cfg2.N, cond2_0 (grid2.coords t) ↔ t.val % 4 = 0 :=
  (by decide +kernel : ∀ t : Fin grid2.N, cond2_0 (grid2.coords t) ↔ t.val % 4 = 0)

abbrev cond2_1 (i : grid2.Coords) : Prop := k2_cond2 i = 1#1
theorem hcond2_1 : ∀ t : Fin cfg2.N, cond2_1 (grid2.coords t) ↔ t.val % 4 = 3 :=
  (by decide +kernel : ∀ t : Fin grid2.N, cond2_1 (grid2.coords t) ↔ t.val % 4 = 3)

abbrev VO2_5 : View sig .tc .vmem S1x512x1024 .f32 := (Memref.whole cc2_stg5_0 : Memref sig .tc .vmem S1x512x1024 .f32).view
abbrev ms2_0 (t : Fin cfg2.N) : Memref sig .tc .vmem S1x512x1024 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S1x2048x1024 .bf16 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1x2048x1024 .bf16 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S1024x1024 .bf16 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S1x1024 .f32 := win2_4.stage (cfg2.slots t 4)
abbrev hs2_4 (t : Fin cfg2.N) : (ms2_4 t).IsWhole := hstage2_4 ((cfg2.slots t 4).cast nbuf2_4)
abbrev ms2_5 (t : Fin cfg2.N) : Memref sig .tc .vmem S1x512x1024 .f32 := win2_5.stage (cfg2.slots t 5)
abbrev hs2_5 (t : Fin cfg2.N) : (ms2_5 t).IsWhole := hstage2_5 ((cfg2.slots t 5).cast nbuf2_5)
abbrev scM2_0 : Memref sig .tc .vmem S512x1024 .bf16 := Memref.whole cc2_scratch0
abbrev scM2_1 : Memref sig .tc .vmem S512x1 .f32 := Memref.whole cc2_scratch1
abbrev scM2_2 : Memref sig .tc .vmem S512x1 .f32 := Memref.whole cc2_scratch2
abbrev scM2_3 : Memref sig .tc .vmem S512x1024 .f32 := Memref.whole cc2_scratch3
abbrev VS2_0 : View sig .tc .vmem S512x1024 .bf16 := scM2_0.view
abbrev VS2_1 : View sig .tc .vmem S512x1 .f32 := scM2_1.view
abbrev VS2_2 : View sig .tc .vmem S512x1 .f32 := scM2_2.view
abbrev VS2_3 : View sig .tc .vmem S512x1024 .f32 := scM2_3.view

theorem owns_eq_unread {c : Dev nD} {s : Shape} {e : EltTy} {M : Memref sig .tc .vmem s e} (h : M.IsWhole) (X : s.Idx → Elt F e) :
    (owns c M fullShare X : sProp 𝕄) = (M.view.loc c ↦[M.view.set]{fullShare} h.unread X) := by
  unfold owns
  refine BI.equiv_iff.mp ⟨?_, ?_⟩
  · show (_ : sProp 𝕄) ⊢ _; iintro ⟨%f, %hf, H⟩; obtain rfl := h.eq_unread hf; iexact H
  · show (_ : sProp 𝕄) ⊢ _; iintro H; iexists _; isplitr; · ipureintro; exact h.read_unread _
    iexact H

section
variable (c : Dev nD) (i : grid2.Coords) (arg3 : Memref sig .tc .vmem S1x512x1024 .f32) (harg3 : arg3.IsWhole) (arg4 : Memref sig .tc .vmem S1x2048x1024 .bf16) (harg4 : arg4.IsWhole) (arg5 : Memref sig .tc .vmem S1x2048x1024 .bf16) (harg5 : arg5.IsWhole) (arg6 : Memref sig .tc .vmem S1024x1024 .bf16) (harg6 : arg6.IsWhole) (arg7 : Memref sig .tc .vmem S1x1024 .f32) (harg7 : arg7.IsWhole) (arg8 : Memref sig .tc .vmem S1x512x1024 .f32) (harg8 : arg8.IsWhole) (arg9 : Memref sig .tc .vmem S512x1024 .bf16) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1024 .f32) (harg12 : arg12.IsWhole)

set_option maxHeartbeats 4000000 in
noncomputable def kernelRun2_A (hc0 : cond2_0 i) (hc1 : ¬cond2_1 i)
    (x0 : Vec F S1x512x1024 .f32) (x1 : Vec F S1x2048x1024 .bf16) (x2 : Vec F S1x2048x1024 .bf16) (x3 : Vec F S1024x1024 .bf16) (x4 : Vec F S1x1024 .f32) :
    Σ' (L5 : List (View.Piece (Elt F) S1x512x1024 .f32)) (LS0 : List (View.Piece (Elt F) S512x1024 .bf16)) (LS1 : List (View.Piece (Elt F) S512x1 .f32)) (LS2 : List (View.Piece (Elt F) S512x1 .f32)), { LS3 : List (View.Piece (Elt F) S512x1024 .f32) //
      ∀ (xi5 : Vec F S1x512x1024 .f32) (E : Set ℕ) (K : PUnit → sProp 𝕄),
        iprop(owns c arg3 fullShare x0 ∗ owns c arg4 fullShare x1 ∗ owns c arg5 fullShare x2 ∗ owns c arg6 fullShare x3 ∗ owns c arg7 fullShare x4 ∗ owns c arg8 fullShare xi5 ∗ (∃ d, owns c arg9 fullShare d) ∗ (∃ d, owns c arg10 fullShare d) ∗ (∃ d, owns c arg11 fullShare d) ∗ (∃ d, owns c arg12 fullShare d)
            ∗ (iprop(owns c arg3 fullShare x0 ∗ owns c arg4 fullShare x1 ∗ owns c arg5 fullShare x2 ∗ owns c arg6 fullShare x3 ∗ owns c arg7 fullShare x4 ∗ owns c arg8 fullShare xi5 ∗ (∃ f, arg9.view.loc c ↦[arg9.view.set]{fullShare} arg9.view.writes (Elt F) f LS0) ∗ (∃ f, arg10.view.loc c ↦[arg10.view.set]{fullShare} arg10.view.writes (Elt F) f LS1) ∗ (∃ f, arg11.view.loc c ↦[arg11.view.set]{fullShare} arg11.view.writes (Elt F) f LS2) ∗ (∃ f, arg12.view.loc c ↦[arg12.view.set]{fullShare} arg12.view.writes (Elt F) f LS3)) -∗ K ⟨⟩))
          ⊢ wp frame (wpE (defs₀ (F := F)) Variants.none c none) E (cc2_kernel i arg3 harg3 arg4 harg4 arg5 harg5 arg6 harg6 arg7 harg7 arg8 harg8 arg9 harg9 arg10 harg10 arg11 harg11 arg12 harg12) K } := by
  refine ⟨[], ?_, ?_, ?_, ?_, fun xi5 E K => ?run⟩
  case run =>
    simp only [cc2_kernel_eq_skeleton]; unfold cc2_kernel_skel
    simp only [k2_part1_eq_skeleton]
    rw [owns_eq_unread harg3, owns_eq_unread harg4, owns_eq_unread harg5, owns_eq_unread harg6, owns_eq_unread harg7, owns_eq_unread harg8]
    unfold owns
    iintro ⟨H0, H1, H2, H3, H4, H5, ⟨%ds0, %fs0, -, HS0⟩, ⟨%ds1, %fs1, -, HS1⟩, ⟨%ds2, %fs2, -, HS2⟩, ⟨%ds3, %fs3, -, HS3⟩, Hk⟩
    sl_exec (disch := first | exact hc0 | exact hc1)
    sl_step
    iapply Hk
    iframe H0 H1 H2 H3 H4 H5
    isplitl [HS0]; · iexists _; iexact HS0
    isplitl [HS1]; · iexists _; iexact HS1
    isplitl [HS2]; · iexists _; iexact HS2
    iexists _; iexact HS3

set_option maxHeartbeats 4000000 in
noncomputable def kernelRun2_B (hc0 : ¬cond2_0 i) (hc1 : ¬cond2_1 i)
    (x0 : Vec F S1x512x1024 .f32) (x1 : Vec F S1x2048x1024 .bf16) (x2 : Vec F S1x2048x1024 .bf16) (x3 : Vec F S1024x1024 .bf16) (x4 : Vec F S1x1024 .f32) (xs0 : Vec F S512x1024 .bf16) (xs1 : Vec F S512x1 .f32) (xs2 : Vec F S512x1 .f32) (xs3 : Vec F S512x1024 .f32) :
    Σ' (L5 : List (View.Piece (Elt F) S1x512x1024 .f32)) (LS1 : List (View.Piece (Elt F) S512x1 .f32)) (LS2 : List (View.Piece (Elt F) S512x1 .f32)), { LS3 : List (View.Piece (Elt F) S512x1024 .f32) //
      ∀ (xi5 : Vec F S1x512x1024 .f32) (E : Set ℕ) (K : PUnit → sProp 𝕄),
        iprop(owns c arg3 fullShare x0 ∗ owns c arg4 fullShare x1 ∗ owns c arg5 fullShare x2 ∗ owns c arg6 fullShare x3 ∗ owns c arg7 fullShare x4 ∗ owns c arg8 fullShare xi5 ∗ owns c arg9 fullShare xs0 ∗ owns c arg10 fullShare xs1 ∗ owns c arg11 fullShare xs2 ∗ owns c arg12 fullShare xs3
            ∗ (iprop(owns c arg3 fullShare x0 ∗ owns c arg4 fullShare x1 ∗ owns c arg5 fullShare x2 ∗ owns c arg6 fullShare x3 ∗ owns c arg7 fullShare x4 ∗ owns c arg8 fullShare xi5 ∗ owns c arg9 fullShare xs0 ∗ (∃ f, arg10.view.loc c ↦[arg10.view.set]{fullShare} arg10.view.writes (Elt F) f LS1) ∗ (∃ f, arg11.view.loc c ↦[arg11.view.set]{fullShare} arg11.view.writes (Elt F) f LS2) ∗ (∃ f, arg12.view.loc c ↦[arg12.view.set]{fullShare} arg12.view.writes (Elt F) f LS3)) -∗ K ⟨⟩))
          ⊢ wp frame (wpE (defs₀ (F := F)) Variants.none c none) E (cc2_kernel i arg3 harg3 arg4 harg4 arg5 harg5 arg6 harg6 arg7 harg7 arg8 harg8 arg9 harg9 arg10 harg10 arg11 harg11 arg12 harg12) K } := by
  refine ⟨[], ?_, ?_, ?_, fun xi5 E K => ?run⟩
  case run =>
    simp only [cc2_kernel_eq_skeleton]; unfold cc2_kernel_skel
    simp only [k2_part1_eq_skeleton]
    rw [owns_eq_unread harg3, owns_eq_unread harg4, owns_eq_unread harg5, owns_eq_unread harg6, owns_eq_unread harg7, owns_eq_unread harg8, owns_eq_unread harg9, owns_eq_unread harg10, owns_eq_unread harg11, owns_eq_unread harg12]
    iintro ⟨H0, H1, H2, H3, H4, H5, HS0, HS1, HS2, HS3, Hk⟩
    sl_exec (disch := first | exact hc0 | exact hc1)
    sl_step
    iapply Hk
    iframe H0 H1 H2 H3 H4 H5 HS0
    isplitl [HS1]; · iexists _; iexact HS1
    isplitl [HS2]; · iexists _; iexact HS2
    iexists _; iexact HS3

set_option maxHeartbeats 4000000 in
noncomputable def kernelRun2_C (hc0 : ¬cond2_0 i) (hc1 : cond2_1 i)
    (x0 : Vec F S1x512x1024 .f32) (x1 : Vec F S1x2048x1024 .bf16) (x2 : Vec F S1x2048x1024 .bf16) (x3 : Vec F S1024x1024 .bf16) (x4 : Vec F S1x1024 .f32) (xs0 : Vec F S512x1024 .bf16) (xs1 : Vec F S512x1 .f32) (xs2 : Vec F S512x1 .f32) (xs3 : Vec F S512x1024 .f32) :
    Σ' (L5 : List (View.Piece (Elt F) S1x512x1024 .f32)) (LS1 : List (View.Piece (Elt F) S512x1 .f32)) (LS2 : List (View.Piece (Elt F) S512x1 .f32)), { LS3 : List (View.Piece (Elt F) S512x1024 .f32) //
      ∀ (E : Set ℕ) (K : PUnit → sProp 𝕄),
        iprop(owns c arg3 fullShare x0 ∗ owns c arg4 fullShare x1 ∗ owns c arg5 fullShare x2 ∗ owns c arg6 fullShare x3 ∗ owns c arg7 fullShare x4 ∗ (∃ d, owns c arg8 fullShare d) ∗ owns c arg9 fullShare xs0 ∗ owns c arg10 fullShare xs1 ∗ owns c arg11 fullShare xs2 ∗ owns c arg12 fullShare xs3
            ∗ (iprop(owns c arg3 fullShare x0 ∗ owns c arg4 fullShare x1 ∗ owns c arg5 fullShare x2 ∗ owns c arg6 fullShare x3 ∗ owns c arg7 fullShare x4 ∗ (∃ f, arg8.view.loc c ↦[arg8.view.set]{fullShare} arg8.view.writes (Elt F) f L5) ∗ owns c arg9 fullShare xs0 ∗ (∃ f, arg10.view.loc c ↦[arg10.view.set]{fullShare} arg10.view.writes (Elt F) f LS1) ∗ (∃ f, arg11.view.loc c ↦[arg11.view.set]{fullShare} arg11.view.writes (Elt F) f LS2) ∗ (∃ f, arg12.view.loc c ↦[arg12.view.set]{fullShare} arg12.view.writes (Elt F) f LS3)) -∗ K ⟨⟩))
          ⊢ wp frame (wpE (defs₀ (F := F)) Variants.none c none) E (cc2_kernel i arg3 harg3 arg4 harg4 arg5 harg5 arg6 harg6 arg7 harg7 arg8 harg8 arg9 harg9 arg10 harg10 arg11 harg11 arg12 harg12) K } := by
  refine ⟨?_, ?_, ?_, ?_, fun E K => ?run⟩
  case run =>
    simp only [cc2_kernel_eq_skeleton]; unfold cc2_kernel_skel
    simp only [k2_part1_eq_skeleton]
    rw [owns_eq_unread harg3, owns_eq_unread harg4, owns_eq_unread harg5, owns_eq_unread harg6, owns_eq_unread harg7, owns_eq_unread harg9, owns_eq_unread harg10, owns_eq_unread harg11, owns_eq_unread harg12]
    unfold owns
    iintro ⟨H0, H1, H2, H3, H4, ⟨%d5, %f5, -, H5⟩, HS0, HS1, HS2, HS3, Hk⟩
    sl_exec (disch := first | exact hc0 | exact hc1)
    sl_step
    iapply Hk
    iframe H0 H1 H2 H3 H4
    isplitl [H5]; · iexists _; iexact H5
    iframe HS0
    isplitl [HS1]; · iexists _; iexact HS1
    isplitl [HS2]; · iexists _; iexact HS2
    iexists _; iexact HS3

end

end Cert.KernelIdeal.Frame

end
-- ==== Proof.KI.R2.lean ====
import proofs.«430256_j43482248905221_3_alg».proof.Proof.KI.R2Runs

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

abbrev runA (c : Dev nD) (t : Fin cfg2.N) (h0 : t.val % 4 = 0) (h1 : ¬t.val % 4 = 3) :=
  kernelRun2_A (F := F) c (grid2.coords t) (ms2_0 t) (hs2_0 t) (ms2_1 t) (hs2_1 t) (ms2_2 t) (hs2_2 t) (ms2_3 t) (hs2_3 t) (ms2_4 t) (hs2_4 t) (ms2_5 t) (hs2_5 t) scM2_0 (Memref.isWhole_whole _) scM2_1 (Memref.isWhole_whole _) scM2_2 (Memref.isWhole_whole _) scM2_3 (Memref.isWhole_whole _) ((hcond2_0 t).mpr h0) (fun h => h1 ((hcond2_1 t).mp h)) (iblk2 V c 0 t) (iblk2 V c 1 t) (iblk2 V c 2 t) (iblk2 V c 3 t) (iblk2 V c 4 t)
abbrev runB (c : Dev nD) (t : Fin cfg2.N) (h0 : ¬t.val % 4 = 0) (h1 : ¬t.val % 4 = 3) (p : St2 F) :=
  kernelRun2_B (F := F) c (grid2.coords t) (ms2_0 t) (hs2_0 t) (ms2_1 t) (hs2_1 t) (ms2_2 t) (hs2_2 t) (ms2_3 t) (hs2_3 t) (ms2_4 t) (hs2_4 t) (ms2_5 t) (hs2_5 t) scM2_0 (Memref.isWhole_whole _) scM2_1 (Memref.isWhole_whole _) scM2_2 (Memref.isWhole_whole _) scM2_3 (Memref.isWhole_whole _) (fun h => h0 ((hcond2_0 t).mp h)) (fun h => h1 ((hcond2_1 t).mp h)) (iblk2 V c 0 t) (iblk2 V c 1 t) (iblk2 V c 2 t) (iblk2 V c 3 t) (iblk2 V c 4 t) p.2.1 p.2.2.1 p.2.2.2.1 p.2.2.2.2
abbrev runC (c : Dev nD) (t : Fin cfg2.N) (h0 : ¬t.val % 4 = 0) (h1 : t.val % 4 = 3) (p : St2 F) :=
  kernelRun2_C (F := F) c (grid2.coords t) (ms2_0 t) (hs2_0 t) (ms2_1 t) (hs2_1 t) (ms2_2 t) (hs2_2 t) (ms2_3 t) (hs2_3 t) (ms2_4 t) (hs2_4 t) (ms2_5 t) (hs2_5 t) scM2_0 (Memref.isWhole_whole _) scM2_1 (Memref.isWhole_whole _) scM2_2 (Memref.isWhole_whole _) scM2_3 (Memref.isWhole_whole _) (fun h => h0 ((hcond2_0 t).mp h)) ((hcond2_1 t).mpr h1) (iblk2 V c 0 t) (iblk2 V c 1 t) (iblk2 V c 2 t) (iblk2 V c 3 t) (iblk2 V c 4 t) p.2.1 p.2.2.1 p.2.2.2.1 p.2.2.2.2

def stA (c : Dev nD) (t : Fin cfg2.N) (h0 : t.val % 4 = 0) (h1 : ¬t.val % 4 = 3) : St2 F :=
  (VO2_5.read (Elt F) (VO2_5.writes (Elt F) VO2_5.junk (runA V c t h0 h1).1),
   VS2_0.read (Elt F) (VS2_0.writes (Elt F) VS2_0.junk (runA V c t h0 h1).2.1),
   VS2_1.read (Elt F) (VS2_1.writes (Elt F) VS2_1.junk (runA V c t h0 h1).2.2.1),
   VS2_2.read (Elt F) (VS2_2.writes (Elt F) VS2_2.junk (runA V c t h0 h1).2.2.2.1),
   VS2_3.read (Elt F) (VS2_3.writes (Elt F) VS2_3.junk (runA V c t h0 h1).2.2.2.2.1))

def stB (c : Dev nD) (t : Fin cfg2.N) (h0 : ¬t.val % 4 = 0) (h1 : ¬t.val % 4 = 3) (p : St2 F) : St2 F :=
  (VO2_5.read (Elt F) (VO2_5.writes (Elt F) VO2_5.junk (runB V c t h0 h1 p).1),
   p.2.1,
   VS2_1.read (Elt F) (VS2_1.writes (Elt F) VS2_1.junk (runB V c t h0 h1 p).2.1),
   VS2_2.read (Elt F) (VS2_2.writes (Elt F) VS2_2.junk (runB V c t h0 h1 p).2.2.1),
   VS2_3.read (Elt F) (VS2_3.writes (Elt F) VS2_3.junk (runB V c t h0 h1 p).2.2.2.1))

def stC (c : Dev nD) (t : Fin cfg2.N) (h0 : ¬t.val % 4 = 0) (h1 : t.val % 4 = 3) (p : St2 F) : St2 F :=
  (VO2_5.read (Elt F) (VO2_5.writes (Elt F) VO2_5.junk (runC V c t h0 h1 p).1),
   p.2.1,
   VS2_1.read (Elt F) (VS2_1.writes (Elt F) VS2_1.junk (runC V c t h0 h1 p).2.1),
   VS2_2.read (Elt F) (VS2_2.writes (Elt F) VS2_2.junk (runC V c t h0 h1 p).2.2.1),
   VS2_3.read (Elt F) (VS2_3.writes (Elt F) VS2_3.junk (runC V c t h0 h1 p).2.2.2.1))

section
variable (c : Dev nD) (t : Fin cfg2.N)
section
variable (h0 : t.val % 4 = 0) (h1 : ¬t.val % 4 = 3)
theorem scoverA_0 (y : S512x1024.Idx) : ∃ pc ∈ (runA V c t h0 h1).2.1, y ∈ pc.1.set := View.cover_of_tiledL _ S512x1024.size (by sl_kernel_rfl) y
theorem scoverA_1 (y : S512x1.Idx) : ∃ pc ∈ (runA V c t h0 h1).2.2.1, y ∈ pc.1.set := View.cover_of_tiledL _ S512x1.size (by sl_kernel_rfl) y
theorem scoverA_2 (y : S512x1.Idx) : ∃ pc ∈ (runA V c t h0 h1).2.2.2.1, y ∈ pc.1.set := View.cover_of_tiledL _ S512x1.size (by sl_kernel_rfl) y
theorem scoverA_3 (y : S512x1024.Idx) : ∃ pc ∈ (runA V c t h0 h1).2.2.2.2.1, y ∈ pc.1.set := View.cover_of_tiledL _ S512x1024.size (by sl_kernel_rfl) y
end
variable (h0 : ¬t.val % 4 = 0)
section
variable (h1 : ¬t.val % 4 = 3) (p : St2 F)
theorem scoverB_1 (y : S512x1.Idx) : ∃ pc ∈ (runB V c t h0 h1 p).2.1, y ∈ pc.1.set := View.cover_of_tiledL _ S512x1.size (by sl_kernel_rfl) y
theorem scoverB_2 (y : S512x1.Idx) : ∃ pc ∈ (runB V c t h0 h1 p).2.2.1, y ∈ pc.1.set := View.cover_of_tiledL _ S512x1.size (by sl_kernel_rfl) y
theorem scoverB_3 (y : S512x1024.Idx) : ∃ pc ∈ (runB V c t h0 h1 p).2.2.2.1, y ∈ pc.1.set := View.cover_of_tiledL _ S512x1024.size (by sl_kernel_rfl) y
end
variable (h1 : t.val % 4 = 3) (p : St2 F)
theorem scoverC_1 (y : S512x1.Idx) : ∃ pc ∈ (runC V c t h0 h1 p).2.1, y ∈ pc.1.set := View.cover_of_tiledL _ S512x1.size (by sl_kernel_rfl) y
theorem scoverC_2 (y : S512x1.Idx) : ∃ pc ∈ (runC V c t h0 h1 p).2.2.1, y ∈ pc.1.set := View.cover_of_tiledL _ S512x1.size (by sl_kernel_rfl) y
theorem scoverC_3 (y : S512x1024.Idx) : ∃ pc ∈ (runC V c t h0 h1 p).2.2.2.1, y ∈ pc.1.set := View.cover_of_tiledL _ S512x1024.size (by sl_kernel_rfl) y
theorem coverC_5 (y : S1x512x1024.Idx) : ∃ pc ∈ (runC V c t h0 h1 p).1, y ∈ pc.1.set := View.cover_of_tiledL _ S1x512x1024.size (by sl_kernel_rfl) y
end

def outsAt2 (c : Dev nD) : (n : ℕ) → n < cfg2.N → St2 F
  | 0, hn => stA V c ⟨0, hn⟩ (Nat.zero_mod _) (fun h => by (try dsimp only at h); omega)
  | n + 1, hn =>
    if h0 : (n + 1) % 4 = 0 then
      if h1 : (n + 1) % 4 = 3 then False.elim (by omega)
      else stA V c ⟨n + 1, hn⟩ h0 h1
    else
      if h1 : (n + 1) % 4 = 3 then stC V c ⟨n + 1, hn⟩ h0 h1 (outsAt2 c n (Nat.lt_of_succ_lt hn))
      else stB V c ⟨n + 1, hn⟩ h0 h1 (outsAt2 c n (Nat.lt_of_succ_lt hn))

theorem outsAt2_A (c : Dev nD) (t : Fin cfg2.N) (h0 : t.val % 4 = 0) (h1 : ¬t.val % 4 = 3) : outsAt2 V c t.val t.isLt = stA V c t h0 h1 := by
  obtain ⟨n, hn⟩ := t
  cases n with
  | zero => exact rfl
  | succ n => exact (dif_pos h0).trans ((dif_neg h1).trans rfl)

theorem outsAt2_B (c : Dev nD) (t : Fin cfg2.N) (h0 : ¬t.val % 4 = 0) (h1 : ¬t.val % 4 = 3) :
    outsAt2 V c t.val t.isLt = stB V c t h0 h1 (outsAt2 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_neg h1).trans rfl)

theorem outsAt2_C (c : Dev nD) (t : Fin cfg2.N) (h0 : ¬t.val % 4 = 0) (h1 : t.val % 4 = 3) :
    outsAt2 V c t.val t.isLt = stC V c t h0 h1 (outsAt2 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_pos h1).trans rfl)

/-- Pieces that cover a buffer leave it at what they alone write. -/
theorem owns_cover {c : Dev nD} {s : Shape} {e : EltTy} (v : View sig .tc .vmem s e) {M : Memref sig .tc .vmem s e} {L : List (View.Piece (Elt F) s e)} (hL : ∀ y : s.Idx, ∃ pc ∈ L, y ∈ pc.1.set) :
    (iprop(∃ f, M.view.loc c ↦[M.view.set]{fullShare} M.view.writes (Elt F) f L) : sProp 𝕄) ⊢ owns c M fullShare (v.read (Elt F) (v.writes (Elt F) v.junk L)) := by
  iintro ⟨%f, H⟩; unfold owns; iexists _; isplitr; swap; · iexact H
  ipureintro; exact View.read_writes_of_cover _ _ _ _ _ hL

def Phi2 (c : Dev nD) (S : sProp 𝕄) : sProp 𝕄 :=
  iprop((S ∗ Pipeline.scopedRestBut spec2 c [cc2_scratch0, cc2_scratch1, cc2_scratch2, cc2_scratch3]) ∗ (∃ r, prngReg c r))

def scrAt (c : Dev nD) (p : St2 F) : sProp 𝕄 :=
  iprop(owns c scM2_0 fullShare p.2.1 ∗ owns c scM2_1 fullShare p.2.2.1 ∗ owns c scM2_2 fullShare p.2.2.2.1 ∗ owns c scM2_3 fullShare p.2.2.2.2)

theorem PhiA2 (c : Dev nD) :
    (Pipeline.ΦA spec2 c : sProp 𝕄) = Phi2 c iprop((∃ d, owns c scM2_0 fullShare d) ∗ (∃ d, owns c scM2_1 fullShare d) ∗ (∃ d, owns c scM2_2 fullShare d) ∗ (∃ d, owns c scM2_3 fullShare d)) := by
  unfold Pipeline.ΦA Phi2
  rw [Pipeline.scopedRest_split_of_list spec2 c [cc2_scratch0, cc2_scratch1, cc2_scratch2, cc2_scratch3] (by decide) (by decide)]
  simp only [scM2_0, scM2_1, scM2_2, scM2_3, owns_whole]
  rfl

def PhiS (c : Dev nD) : (n : ℕ) → n ≤ cfg2.N → sProp 𝕄
  | 0, _ => Pipeline.ΦA spec2 c
  | n + 1, hn => Phi2 c (scrAt c (outsAt2 V c n hn))

theorem PhiS_pos (c : Dev nD) (t : Fin cfg2.N) (hz : t.val ≠ 0) :
    PhiS V c t.val (Nat.le_of_lt t.isLt) = Phi2 c (scrAt c (outsAt2 V c (t.val - 1) (Nat.lt_of_le_of_lt (Nat.sub_le _ _) t.isLt))) := by
  obtain ⟨_ | n, hn⟩ := t
  · exact absurd rfl hz
  · rfl

/-- The invariant at any position entails the one that forgets the scratch contents. -/
theorem PhiS_any (c : Dev nD) : ∀ (n : ℕ) (h : n ≤ cfg2.N), PhiS V c n h ⊢ Pipeline.ΦA spec2 c
  | 0, _ => .rfl
  | n + 1, hn => by
    rw [PhiA2]; show Phi2 c (scrAt c (outsAt2 V c n hn)) ⊢ _; unfold Phi2 scrAt
    exact sep_mono_left (sep_mono_left (sep_mono (exists_intro _) (sep_mono (exists_intro _) (sep_mono (exists_intro _) (exists_intro _)))))

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => (outsAt2 V c t.val t.isLt).1
  Φ t := PhiS V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem after2_5 (c : Dev nD) (t : Fin cfg2.N) : (dat2 V c).after 5 t = (outsAt2 V c t.val t.isLt).1 := rfl

theorem before2_0 (c : Dev nD) (t : Fin cfg2.N) (d) : (dat2 V c).before 0 t d = iblk2 V c 0 t :=
  (dat2 V c).before_in_eq_fetched 0 rfl (fun _ => rfl) (fun _ _ _ => rfl) (fun _ => rfl) t d
theorem before2_1 (c : Dev nD) (t : Fin cfg2.N) (d) : (dat2 V c).before 1 t d = iblk2 V c 1 t :=
  (dat2 V c).before_in_eq_fetched 1 rfl (fun _ => rfl) (fun _ _ _ => rfl) (fun _ => rfl) t d
theorem before2_2 (c : Dev nD) (t : Fin cfg2.N) (d) : (dat2 V c).before 2 t d = iblk2 V c 2 t :=
  (dat2 V c).before_in_eq_fetched 2 rfl (fun _ => rfl) (fun _ _ _ => rfl) (fun _ => rfl) t d
theorem before2_3 (c : Dev nD) (t : Fin cfg2.N) (d) : (dat2 V c).before 3 t d = iblk2 V c 3 t :=
  (dat2 V c).before_in_eq_fetched 3 rfl (fun _ => rfl) (fun _ _ _ => rfl) (fun _ => rfl) t d
theorem before2_4 (c : Dev nD) (t : Fin cfg2.N) (d) : (dat2 V c).before 4 t d = iblk2 V c 4 t :=
  (dat2 V c).before_in_eq_fetched 4 rfl (fun _ => rfl) (fun _ _ _ => rfl) (fun _ => rfl) t d

theorem idle2_5 : ∀ t : Fin cfg2.N, ¬t.val % 4 = 3 → cfg2.idle 5 (grid2.coords t) = true ∧ (cfg2.win 5).flush t = false := by decide +kernel
theorem live2_5 : ∀ t : Fin cfg2.N, t.val % 4 = 3 → cfg2.idle 5 (grid2.coords t) = false := by decide +kernel

set_option maxHeartbeats 8000000 in
/-- By cases on the tile index: the reset case forgets what the scratch held, the other two continue from it. -/
theorem sound_body2 (c : Dev nD) (t : Fin cfg2.N) :
    iprop(PhiS V c t.val (Nat.le_of_lt t.isLt) ∗ (dat2 V c).owesAt () t.castSucc
      ∗ (∃ d, owns c (ms2_0 t) fullShare ((dat2 V c).before 0 t d))
      ∗ (∃ d, owns c (ms2_1 t) fullShare ((dat2 V c).before 1 t d))
      ∗ (∃ d, owns c (ms2_2 t) fullShare ((dat2 V c).before 2 t d))
      ∗ (∃ d, owns c (ms2_3 t) fullShare ((dat2 V c).before 3 t d))
      ∗ (∃ d, owns c (ms2_4 t) fullShare ((dat2 V c).before 4 t d))
      ∗ (∃ d, owns c (ms2_5 t) fullShare ((dat2 V c).before 5 t d)))
    ⊢ wp frame (wpE (defs₀ (F := F)) Variants.none c none) Set.univ (bodyAt2 t) (fun _ => iprop(Phi2 c (scrAt c (outsAt2 V c t.val t.isLt)) ∗ (dat2 V c).owesAt () t.castSucc
      ∗ owns c (ms2_0 t) fullShare (iblk2 V c 0 t) ∗ owns c (ms2_1 t) fullShare (iblk2 V c 1 t) ∗ owns c (ms2_2 t) fullShare (iblk2 V c 2 t) ∗ owns c (ms2_3 t) fullShare (iblk2 V c 3 t) ∗ owns c (ms2_4 t) fullShare (iblk2 V c 4 t) ∗ (dat2 V c).leavesExact 5 t)) := by
  unfold bodyAt2
  simp only [before2_0, before2_1, before2_2, before2_3, before2_4]
  by_cases h1 : t.val % 4 = 3
  · have h0 : ¬t.val % 4 = 0 := by omega
    rw [show (dat2 V c).leavesExact 5 t = owns c (ms2_5 t) fullShare ((dat2 V c).after 5 t) from by
      unfold Dat.leavesExact; rw [live2_5 t h1], after2_5,
      outsAt2_C V c t h0 h1, PhiS_pos V c t fun h => h0 (by rw [h])]
    unfold stC scrAt Phi2; dsimp only
    iintro ⟨⟨⟨⟨HS0, HS1, HS2, HS3⟩, Hoth⟩, Hg⟩, Ho, ⟨%d0, H0⟩, ⟨%d1, H1⟩, ⟨%d2, H2⟩, ⟨%d3, H3⟩, ⟨%d4, H4⟩, ⟨%d5, H5⟩⟩
    iapply ((runC V c t h0 h1 _).2.2.2.2 Set.univ _)
    iframe H0 H1 H2 H3 H4
    isplitl [H5]; · iexists _; iexact H5
    isplitl [HS0]; · iexact HS0
    iframe HS1 HS2 HS3
    iintro ⟨H0, H1, H2, H3, H4, H5, HS0, HS1, HS2, HS3⟩
    ihave H5 := owns_cover VO2_5 (coverC_5 V c t h0 h1 _) $$ H5
    ihave HS1 := owns_cover VS2_1 (scoverC_1 V c t h0 h1 _) $$ HS1
    ihave HS2 := owns_cover VS2_2 (scoverC_2 V c t h0 h1 _) $$ HS2
    ihave HS3 := owns_cover VS2_3 (scoverC_3 V c t h0 h1 _) $$ HS3
    iframe
  · rw [Dat.leavesExact_idle (dat2 V c) 5 t (idle2_5 t h1).1 (idle2_5 t h1).2]
    by_cases h0 : t.val % 4 = 0
    · rw [outsAt2_A V c t h0 h1]
      unfold stA scrAt; dsimp only
      refine (sep_mono_left (PhiS_any V c _ _)).trans ?_
      rw [PhiA2]; unfold Phi2
      iintro ⟨⟨⟨⟨HS0, HS1, HS2, HS3⟩, Hoth⟩, Hg⟩, Ho, ⟨%d0, H0⟩, ⟨%d1, H1⟩, ⟨%d2, H2⟩, ⟨%d3, H3⟩, ⟨%d4, H4⟩, ⟨%d5, H5⟩⟩
      iapply ((runA V c t h0 h1).2.2.2.2.2 _ Set.univ _)
      iframe H0 H1 H2 H3 H4 H5 HS0 HS1 HS2 HS3
      iintro ⟨H0, H1, H2, H3, H4, H5, HS0, HS1, HS2, HS3⟩
      ihave HS0 := owns_cover VS2_0 (scoverA_0 V c t h0 h1) $$ HS0
      ihave HS1 := owns_cover VS2_1 (scoverA_1 V c t h0 h1) $$ HS1
      ihave HS2 := owns_cover VS2_2 (scoverA_2 V c t h0 h1) $$ HS2
      ihave HS3 := owns_cover VS2_3 (scoverA_3 V c t h0 h1) $$ HS3
      iframe Hoth Hg Ho H0 H1 H2 H3 H4 HS0 HS1 HS2 HS3
      iexists _; iexact H5
    · rw [outsAt2_B V c t h0 h1, PhiS_pos V c t fun h => h0 (by rw [h])]
      unfold stB scrAt Phi2; dsimp only
      iintro ⟨⟨⟨⟨HS0, HS1, HS2, HS3⟩, Hoth⟩, Hg⟩, Ho, ⟨%d0, H0⟩, ⟨%d1, H1⟩, ⟨%d2, H2⟩, ⟨%d3, H3⟩, ⟨%d4, H4⟩, ⟨%d5, H5⟩⟩
      iapply ((runB V c t h0 h1 _).2.2.2.2 _ Set.univ _)
      iframe H0 H1 H2 H3 H4 H5
      isplitl [HS0]; · iexact HS0
      iframe HS1 HS2 HS3
      iintro ⟨H0, H1, H2, H3, H4, H5, HS0, HS1, HS2, HS3⟩
      ihave HS1 := owns_cover VS2_1 (scoverB_1 V c t h0 h1 _) $$ HS1
      ihave HS2 := owns_cover VS2_2 (scoverB_2 V c t h0 h1 _) $$ HS2
      ihave HS3 := owns_cover VS2_3 (scoverB_3 V c t h0 h1 _) $$ HS3
      iframe Hoth Hg Ho H0 H1 H2 H3 H4 HS0 HS1 HS2 HS3
      iexists _; iexact H5

theorem body_obligation2 (c : Dev nD) : BodyObligation (dat2 (F := F) V c) (defs₀ (F := F)) Variants.none () Set.univ := fun t => by
  rw [bigSep_W2, bigSep_W2]
  exact sound_body2 V c t

theorem hin2 (c : Dev nD) : Pipeline.ΦA spec2 c ⊢ (dat2 V c).Φ 0 := .rfl

theorem hout2 (c : Dev nD) : (dat2 V c).Φ (Fin.last cfg2.N) ⊢ Pipeline.ΦA spec2 c := PhiS_any V c (Fin.last cfg2.N).val _

end Cert.KernelIdeal.Frame

end
-- ==== Proof.KI.Launch.lean ====
import proofs.«430256_j43482248905221_3_alg».proof.Proof.KI.R0
import proofs.«430256_j43482248905221_3_alg».proof.Proof.KI.R1
import proofs.«430256_j43482248905221_3_alg».proof.Proof.KI.R2
import proofs.«430256_j43482248905221_3_alg».proof.Proof.Gen.KernelIdeal.Regions

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev W0 : Dev nD → Valuation τ sig (Elt F) := fun c b => (s₀ m ρ).mem ((c : Dev nD), b)

abbrev W1 : Dev nD → Valuation τ sig (Elt F) := fun c => StableHlo.after hostOps0 (W0 m ρ c)

abbrev V1 : (c : Dev nD) → (b : Ref sig .tc) → Buf (Elt F) ((c : Thread nD τ).loc b) := fun c b => W1 m ρ c b

def W2 (c : Dev nD) : Valuation τ sig (Elt F) :=
  Pipeline.withArrays spec0 c (W1 m ρ c) fun w => (dat0 (V1 m ρ) c).arrAt w cfg0.N
theorem W2_of_ne (c : Dev nD) (b : Ref sig .tc) (hb : ∀ w, Pipeline.arrRef spec0 w ≠ b) :
    W2 m ρ c (Proc.devRef .tc b) = W1 m ρ c (Proc.devRef .tc b) :=
  Pipeline.withArrays_of_ne spec0 c _ _ b hb

abbrev W3 : Dev nD → Valuation τ sig (Elt F) := fun c => StableHlo.after hostOps1 (W2 m ρ c)

abbrev V3 : (c : Dev nD) → (b : Ref sig .tc) → Buf (Elt F) ((c : Thread nD τ).loc b) := fun c b => W3 m ρ c b

def W4 (c : Dev nD) : Valuation τ sig (Elt F) :=
  Pipeline.withArrays spec1 c (W3 m ρ c) fun w => (dat1 (V3 m ρ) c).arrAt w cfg1.N
theorem W4_of_ne (c : Dev nD) (b : Ref sig .tc) (hb : ∀ w, Pipeline.arrRef spec1 w ≠ b) :
    W4 m ρ c (Proc.devRef .tc b) = W3 m ρ c (Proc.devRef .tc b) :=
  Pipeline.withArrays_of_ne spec1 c _ _ b hb

abbrev W5 : Dev nD → Valuation τ sig (Elt F) := fun c => StableHlo.after hostOps2 (W4 m ρ c)

abbrev V5 : (c : Dev nD) → (b : Ref sig .tc) → Buf (Elt F) ((c : Thread nD τ).loc b) := fun c b => W5 m ρ c b

def W6 (c : Dev nD) : Valuation τ sig (Elt F) :=
  Pipeline.withArrays spec2 c (W5 m ρ c) fun w => (dat2 (V5 m ρ) c).arrAt w cfg2.N
theorem W6_arr (c : Dev nD) (w : Fin cfg2.W) :
    W6 m ρ c (Proc.devRef .tc (Pipeline.arrRef spec2 w)) = (dat2 (V5 m ρ) c).arrAt w cfg2.N :=
  Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) :=
  Pipeline.withArrays_of_ne spec2 c _ _ b hb

theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
theorem W3_of (c : Dev nD) (r : Ref sig .tc) (h : r ∉ hostOps1_W) : W3 m ρ c (Proc.devRef .tc r) = W2 m ρ c (Proc.devRef .tc r) :=
  StableHlo.after_of_writes_sub hostOps1 _ hostOps1_writes h
theorem W5_of (c : Dev nD) (r : Ref sig .tc) (h : r ∉ hostOps2_W) : W5 m ρ c (Proc.devRef .tc r) = W4 m ρ c (Proc.devRef .tc r) :=
  StableHlo.after_of_writes_sub hostOps2 _ hostOps2_writes h

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- A buffer that no item of the program writes ends as launched. -/
theorem kept {c : Dev nD} {f : Valuation τ sig (Elt F)} (h : ∀ b ∈ Pipeline.ucRefs τ sig, f b = W6 m ρ c b) (r : Ref sig .tc)
    (hr : ¬ (Proc.devRef .tc r : DevRef τ sig).isScoped
      ∧ ((∀ w, Pipeline.arrRef spec2 w ≠ r) ∨ ∃ w, (cfg2.win w).isOut = false ∧ Pipeline.arrRef spec2 w = r)
      ∧ r ∉ hostOps2_W ∧ (∀ w, Pipeline.arrRef spec1 w ≠ r) ∧ r ∉ hostOps1_W ∧ (∀ w, Pipeline.arrRef spec0 w ≠ r) ∧ r ∉ hostOps0_W) :
    f (Proc.devRef .tc r) = m ((c : Thread nD τ).loc r) :=
  (h _ (mem_uc r hr.1)).trans <|
    (hr.2.1.elim (W6_of_ne m ρ c r) fun ⟨w, hw, e⟩ =>
      e ▸ (W6_arr m ρ c w).trans (((dat2 (V5 m ρ) c).arrAt_in w hw _).trans (A_eq2 (V5 m ρ) c w))).trans <|
    (W5_of m ρ c r hr.2.2.1).trans <| (W4_of_ne m ρ c r hr.2.2.2.1).trans <| (W3_of m ρ c r hr.2.2.2.2.1).trans <|
    (W2_of_ne m ρ c r hr.2.2.2.2.2.1).trans (W1_of m ρ c r hr.2.2.2.2.2.2)

theorem W2_main_v11 (c : Dev nD) : W2 m ρ c (Proc.devRef .tc main_v11) = (dat0 (V1 m ρ) c).arrAt 3 cfg0.N :=
  Pipeline.withArrays_arr spec0 launch0.win.arr_inj c _ _ 3
theorem W4_main_v13 (c : Dev nD) : W4 m ρ c (Proc.devRef .tc main_v13) = (dat1 (V3 m ρ) c).arrAt 3 cfg1.N :=
  Pipeline.withArrays_arr spec1 launch1.win.arr_inj c _ _ 3
theorem W6_main_v15 (c : Dev nD) : W6 m ρ c (Proc.devRef .tc main_v15) = (dat2 (V5 m ρ) c).arrAt 5 cfg2.N := W6_arr m ρ c 5

def pdats : (p : Fin 3) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
abbrev 𝒱₀ : Variants := Variants.none

abbrev L : GSem nD τ sig → Finset Unit := fun _ => ∅
abbrev lv : GSem nD τ sig → Unit → ℕ := fun _ _ => 0

abbrev R (c : Dev nD) : sProp 𝕄 := iprop((∃ r, prngReg c r) ∗ ∃ W, owes (c : Thread nD τ) (0 : CellTallies nD τ sig Unit) W)

abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (List.forall_iff_forall_mem.mp hfresh) W R

set_option backward.isDefEq.respectTransparency.types false in
def reg (p : Fin 3) (la : Pipeline.LaunchFacts (nD := nD) (τ := τ) cfgs p) (Wi : Dev nD → Valuation τ sig (Elt F))
    (hb : ∀ c, BodyObligation (pdats m ρ p c) defs₀ 𝒱₀ () Set.univ)
    (hq : ∀ c w, (pdats m ρ p c).q w = fullShare) (h0 : ∀ c t, (pdats m ρ p c).owed t = 0)
    (hR : ∀ c, (pdats m ρ p c).recorded 0 = Set.univ)
    (hA : ∀ c w, (pdats m ρ p c).A w = Wi c (Proc.devRef .tc (Pipeline.arrRef (cfgs p).spec w)))
    (hi : ∀ c, Pipeline.ΦA (cfgs p).spec c ⊢ (pdats m ρ p c).Φ 0)
    (ho : ∀ c, (pdats m ρ p c).Φ (Fin.last (cfgs p).N) ⊢ Pipeline.ΦA (cfgs p).spec c) :
    Pipeline.RegionSeg _ _ (pdats m ρ) () defs₀ 𝒱₀ L lv p where
  win := la.win.to₀
  block_pos := la.block_pos
  stage_whole := la.stage_whole
  K := PEmpty
  osem k := k.elim
  ho := Pipeline.OwnSemFacts.none _
  hbody c := (hb c).loose
  hwaits := Pipeline.hwaits_of_owed_zero _ _ _ _ L lv p h0
  pre c := iprop(StableHlo.held (c : Thread nD τ) (Pipeline.ucRefs τ sig) (Wi c) ∗ R c)
  post c := iprop(StableHlo.held (c : Thread nD τ) (Pipeline.ucRefs τ sig) (Pipeline.withArrays (cfgs p).spec c (Wi c) ((pdats m ρ p c).arrAt · (cfgs p).N)) ∗ R c)
  X c := iprop(∃ r, prngReg c r)
  Y c := iprop(∃ r, prngReg c r)
  Z c := Pipeline.unscopedRest (cfgs p).spec c fun b => Wi c b
  hentry c := by
    rw [Pipeline.ownSems0_none]
    have hsplit := Pipeline.arrays_of_unscopedBufs (p := p) _ _ (pdats m ρ) la.win la.arr_whole c ((pdats m ρ p c).share_full (hq c)) (fun b => Wi c b) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin Pipeline.Dat.bound; rw [h0, hR]
      icases HO with ⟨%W, HO⟩; iexists W; isplitr; · ipureintro; exact fun _ _ => Or.inl trivial
      iexact HO
    isplitl [Hp]; · iexact Hp
    iexact Hrest
  hin c := by
    refine .trans ?_ (hi c); unfold Pipeline.ΦA
    iintro ⟨Hp, -, Hr⟩
    isplitl [Hr]; · iexact Hr
    iexact Hp
  hout c := by
    rw [Pipeline.ownSems0_none]; refine (ho c).trans ?_; unfold Pipeline.ΦA
    iintro ⟨Hr, Hp⟩
    isplitl [Hp]; · iexact Hp
    isplitr; · iempintro
    iexact Hr
  hexit c := by
    have hjoin := Pipeline.unscopedBufs_of_arrays (p := p) _ _ la.win la.arr_whole c (pdats m ρ) ((pdats m ρ p c).share_full (hq c)) (fun b => Wi c b) (fun b => Pipeline.withArrays _ c (Wi c) ((pdats m ρ p c).arrAt · (cfgs p).N) b) _
      (fun w => (Pipeline.withArrays_arr _ la.win.arr_inj c (Wi c) _ w).symm)
      fun b hb => Pipeline.withArrays_of_ne _ c _ _ b fun w e => hb (Finset.mem_image.mpr ⟨w, Finset.mem_univ _, e⟩)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin; rw [h0]
    icases HO with ⟨%W, -, HO⟩; iexists W; iexact HO

def reg0 := reg m ρ 0 launch0 (W1 m ρ) (body_obligation0 (V1 m ρ)) (fun _ _ => rfl) (fun _ _ => rfl) (fun _ => rfl) (fun _ _ => rfl) (fun _ => .rfl) fun _ => .rfl
def reg1 := reg m ρ 1 launch1 (W3 m ρ) (body_obligation1 (V3 m ρ)) (fun _ _ => rfl) (fun _ _ => rfl) (fun _ => rfl) (fun _ _ => rfl) (fun _ => .rfl) fun _ => .rfl
def reg2 := reg m ρ 2 launch2 (W5 m ρ) (body_obligation2 (V5 m ρ)) (fun _ _ => rfl) (fun _ _ => rfl) (fun _ => rfl) (fun _ _ => rfl) (hin2 (V5 m ρ)) (hout2 (V5 m ρ))

abbrev segs : List (Pipeline.Seg _ _ (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ) ]

theorem main_run (c : Dev nD) : main (F := F) c = Pipeline.Seg.run (segs m ρ) := (main_chain c).trans (by chain_rfl)

set_option backward.isDefEq.respectTransparency.types false in
theorem run_all : θ_run defs (onTc (τ := τ) (main (F := F))) ⟨m, fun _ => 0, ρ⟩ (fun r => ∀ c : Dev nD,
      ∀ b ∈ Pipeline.ucRefs τ sig, r.2.mem ((c : Thread nD τ).1, b) = W6 m ρ c b) :=
  Pipeline.θ_run_regions_kit _ _ (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c))
    (Tₙ := fun c => iprop(StableHlo.held (c : Thread nD τ) (Pipeline.ucRefs τ sig) (W6 m ρ c) ∗ ∃ r, prngReg c r))
    (hch := ⟨fun _ => .rfl, fun _ => .rfl, fun _ => .rfl, fun _ => .rfl, fun _ => .rfl, fun _ => .rfl, fun _ => sep_assoc'⟩)
    (hinit := by
      refine Pipeline.initEach L lv fun c => ?_
      erw [Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h => h)

theorem run_value : θ_run defs (onTc (τ := τ) (main (F := F))) ⟨m, fun _ => 0, ρ⟩ (fun r => ∀ c : Dev nD,
      r.2.mem ((c.tc : Thread nD τ).loc main_v15) = W6 m ρ c (Proc.devRef .tc main_v15)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c =>
    ⟨h c _ (mem_uc main_v15 (by decide)),
      kept m ρ (h c) main_arg0 (by decide),
      kept m ρ (h c) main_arg1 (by decide),
      kept m ρ (h c) main_arg2 (by decide),
      kept m ρ (h c) main_arg3 (by decide),
      kept m ρ (h c) main_arg4 (by decide),
      kept m ρ (h c) main_arg5 (by decide),
      kept m ρ (h c) main_arg6 (by decide),
      kept m ρ (h c) main_arg7 (by decide),
      kept m ρ (h c) main_arg8 (by decide)⟩) (run_all m ρ)

protected theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => (h c).2) (run_value m ρ)

end Cert.KernelIdeal.Frame

end
-- ==== Proof.KI.HostOps.lean ====
import proofs.«430256_j43482248905221_3_alg».proof.Proof.Gen.KernelIdeal.Launch
import proofs.«430256_j43482248905221_3_alg».proof.Proof.Gen.KernelIdeal.Regions
import Idealize.ShloMosaic.Lib.StableHlo.Run
import Idealize.ShloMosaic.Lib.ValueIdx
import Idealize.ShloMosaic.Lib.Pipeline.Value
import Idealize.ShloMosaic.Lib.ValueLayout

noncomputable section

namespace Cert.KernelIdeal.HostOps

open Cert.KernelIdeal Cert.KernelIdeal.Gen Idealize.ShloMosaic Idealize.ShloMosaic.TcCoe Idealize.SL.Sem
  Idealize.ShloMosaic.StableHlo Idealize.ShloMosaic.ValueIdx

variable (W : Valuation τ sig (Elt Ideal))

abbrev flatRow (b : Fin 4) (s : Fin 2048) : Fin 8192 := ⟨2048 * b.val + s.val, by omega⟩

section Layout

variable {α : Type}

theorem flatten_apply (x : S4x2048x1024.Idx → α) (h : S4x2048x1024.ShapeCasts S8192x1024) (b : Fin 4) (s : Fin 2048)
    (d : Fin 1024) : shapeCast S8192x1024 x h (ix2 (flatRow b s) d) = x (ix3 b s d) :=
  shapeCast_apply x h _ _ (by
    rw [Shape.rowMajor_val_three, Shape.rowMajor_val_two]
    show (b.val * 2048 + s.val) * 1024 + d.val = (2048 * b.val + s.val) * 1024 + d.val
    omega)

theorem unflatten_apply (x : S8192x1024.Idx → α) (h : S8192x1024.ShapeCasts S4x2048x1024) (b : Fin 4) (s : Fin 2048)
    (j : Fin 1024) : shapeCast S4x2048x1024 x h (ix3 b s j) = x (ix2 (flatRow b s) j) :=
  shapeCast_apply x h _ _ (by
    rw [Shape.rowMajor_val_three, Shape.rowMajor_val_two]
    show (2048 * b.val + s.val) * 1024 + j.val = (b.val * 2048 + s.val) * 1024 + j.val
    omega)

end Layout

theorem v0_apply' (b : Fin 4) (s : Fin 2048) (d : Fin 1024) :
    (StableHlo.after hostOps0 W (Proc.devRef .tc main_v0) : S8192x1024.Idx → EReal) (ix2 (flatRow b s) d)
      = (W (Proc.devRef .tc main_arg1) : S4x2048x1024.Idx → EReal) (ix3 b s d) :=
  (congrFun (show (StableHlo.after hostOps0 W (Proc.devRef .tc main_v0) : S8192x1024.Idx → EReal)
      = shapeCast S8192x1024 (W (Proc.devRef .tc main_arg1) : S4x2048x1024.Idx → EReal) shapeCasts_S4x2048x1024_S8192x1024 by
    dsimp only [hostOps0]; after_results; rfl) _).trans (flatten_apply _ _ b s d)

theorem v1_apply' (b : Fin 4) (s : Fin 2048) (d : Fin 1024) :
    (StableHlo.after hostOps0 W (Proc.devRef .tc main_v1) : S8192x1024.Idx → EReal) (ix2 (flatRow b s) d)
      = (W (Proc.devRef .tc main_arg2) : S4x2048x1024.Idx → EReal) (ix3 b s d) :=
  (congrFun (show (StableHlo.after hostOps0 W (Proc.devRef .tc main_v1) : S8192x1024.Idx → EReal)
      = shapeCast S8192x1024 (W (Proc.devRef .tc main_arg2) : S4x2048x1024.Idx → EReal) shapeCasts_S4x2048x1024_S8192x1024 by
    dsimp only [hostOps0]; after_results; rfl) _).trans (flatten_apply _ _ b s d)

theorem transposed_apply {x y : S1024x1024.Idx → EReal}
    (e : x = truncf (F := Ideal) .bf16 (transpose S1024x1024 [1, 0] y transposes_S1024x1024_S1024x1024_1_0) bitsLt_bf16_f32)
    (d j : Fin 1024) : x (ix2 d j) = y (ix2 j d) :=
  (congrFun e _).trans (transpose_ix2_apply _ _ d j)

theorem v3_apply (d j : Fin 1024) :
    (StableHlo.after hostOps0 W (Proc.devRef .tc main_v3) : S1024x1024.Idx → EReal) (ix2 d j)
      = (W (Proc.devRef .tc main_arg5) : S1024x1024.Idx → EReal) (ix2 j d) :=
  transposed_apply (by dsimp only [hostOps0]; after_results) d j

theorem v5_apply (d j : Fin 1024) :
    (StableHlo.after hostOps0 W (Proc.devRef .tc main_v5) : S1024x1024.Idx → EReal) (ix2 d j)
      = (W (Proc.devRef .tc main_arg7) : S1024x1024.Idx → EReal) (ix2 j d) :=
  transposed_apply (by dsimp only [hostOps0]; after_results) d j

theorem v7_apply (d j : Fin 1024) :
    (StableHlo.after hostOps0 W (Proc.devRef .tc main_v7) : S1024x1024.Idx → EReal) (ix2 d j)
      = (W (Proc.devRef .tc main_arg3) : S1024x1024.Idx → EReal) (ix2 j d) :=
  transposed_apply (by dsimp only [hostOps0]; after_results) d j

theorem row_apply {x : S1x1024.Idx → EReal} {y : S1024.Idx → EReal} (e : x = shapeCast S1x1024 y shapeCasts_S1024_S1x1024)
    (j : Fin 1024) : x (ix2 (0 : Fin 1) j) = y (ix1 j) :=
  (congrFun e _).trans (shapeCast_a_1a_apply _ _ 0 j)

theorem v8_apply (j : Fin 1024) :
    (StableHlo.after hostOps0 W (Proc.devRef .tc main_v8) : S1x1024.Idx → EReal) (ix2 (0 : Fin 1) j)
      = (W (Proc.devRef .tc main_arg6) : S1024.Idx → EReal) (ix1 j) :=
  row_apply (by dsimp only [hostOps0]; after_results; rfl) j

theorem v9_apply (j : Fin 1024) :
    (StableHlo.after hostOps0 W (Proc.devRef .tc main_v9) : S1x1024.Idx → EReal) (ix2 (0 : Fin 1) j)
      = (W (Proc.devRef .tc main_arg8) : S1024.Idx → EReal) (ix1 j) :=
  row_apply (by dsimp only [hostOps0]; after_results; rfl) j

theorem v10_apply (j : Fin 1024) :
    (StableHlo.after hostOps0 W (Proc.devRef .tc main_v10) : S1x1024.Idx → EReal) (ix2 (0 : Fin 1) j)
      = (W (Proc.devRef .tc main_arg4) : S1024.Idx → EReal) (ix1 j) :=
  row_apply (by dsimp only [hostOps0]; after_results; rfl) j

theorem v12_apply (b : Fin 4) (s : Fin 2048) (j : Fin 1024) :
    (StableHlo.after hostOps1 W (Proc.devRef .tc main_v12) : S4x2048x1024.Idx → EReal) (ix3 b s j)
      = (W (Proc.devRef .tc main_v11) : S8192x1024.Idx → EReal) (ix2 (flatRow b s) j) :=
  (congrFun (show (StableHlo.after hostOps1 W (Proc.devRef .tc main_v12) : S4x2048x1024.Idx → EReal)
      = shapeCast S4x2048x1024 (W (Proc.devRef .tc main_v11) : S8192x1024.Idx → EReal) shapeCasts_S8192x1024_S4x2048x1024 by
    dsimp only [hostOps1]; after_results; rfl) _).trans (unflatten_apply _ _ b s j)

theorem v14_apply (b : Fin 4) (s : Fin 2048) (j : Fin 1024) :
    (StableHlo.after hostOps2 W (Proc.devRef .tc main_v14) : S4x2048x1024.Idx → EReal) (ix3 b s j)
      = (W (Proc.devRef .tc main_v13) : S8192x1024.Idx → EReal) (ix2 (flatRow b s) j) :=
  (congrFun (show (StableHlo.after hostOps2 W (Proc.devRef .tc main_v14) : S4x2048x1024.Idx → EReal)
      = shapeCast S4x2048x1024 (W (Proc.devRef .tc main_v13) : S8192x1024.Idx → EReal) shapeCasts_S8192x1024_S4x2048x1024 by
    dsimp only [hostOps2]; after_results; rfl) _).trans (unflatten_apply _ _ b s j)

end Cert.KernelIdeal.HostOps

end
-- ==== Proof.KI.R0Value.lean ====
import proofs.«430256_j43482248905221_3_alg».proof.Proof.KI.R0
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Value0

open Cert.KernelIdeal Cert.KernelIdeal.Gen
open Idealize.ShloMosaic Idealize.ShloMosaic.TcCoe Idealize.SL.Sem
open Idealize.ShloMosaic.Pipeline (Dat)
open Idealize.ShloMosaic.ValueIdx

theorem hz : (![0, 0] : Fin 2 → Nat) = fun _ => 0 := funext fun a => by fin_cases a <;> rfl

-- one contracted axis and zero added: entry (r, j) is row r of the left factor against column j of the right
theorem mm_apply (A : FVec Ideal S2048x1024 .bf16) (B : FVec Ideal S1024x1024 .bf16) (r : Fin 2048) (j : Fin 1024) :
    matmul dot_S2048x1024_S1024x1024_S2048x1024_1_0_0_1_n_n none A B (constant (F := Ideal) S2048x1024 .f32 0x00000000#32) (ix2 r j)
      = ∑ d : Fin 1024, A (ix2 r d) * B (ix2 d j) := by
  simp only [matmul]
  rw [Ideal.matmul_constant_zero_apply, ← Equiv.sum_comp (contrEquiv1 dot_S2048x1024_S1024x1024_S2048x1024_1_0_0_1_n_n 1024 rfl rfl).symm]
  refine Finset.sum_congr rfl fun k _ => ?_
  have hk := contrEquiv1_symm_val dot_S2048x1024_S1024x1024_S2048x1024_1_0_0_1_n_n 1024 rfl rfl k
  rw [show DotDims.lhsIdx _ (ix2 r j) _ = ix2 r k from Shape.idx_ext₂ rfl ((DotDims.lhsIdx_val_of_single _ rfl _ _).trans hk),
    show DotDims.rhsIdx _ (ix2 r j) _ = ix2 k j from Shape.idx_ext₂ ((DotDims.rhsIdx_val_of_single _ rfl _ _).trans hk) rfl]

-- on the extended reals the format changes and same-shape casts are the identity
theorem out0_3_apply (x0 : Vec Ideal S2048x1024 .f32) (x1 : Vec Ideal S1024x1024 .bf16) (x2 : Vec Ideal S1x1024 .f32) (r : Fin 2048) (j : Fin 1024) :
    Frame.out0_3 (F := Ideal) x0 x1 x2 (ix2 r j) = (∑ d : Fin 1024, x0 (ix2 r d) * x1 (ix2 d j)) + x2 (ix2 0 j) := by
  unfold Frame.out0_3
  rw [View.canon_unit_zero hz]
  simp only [View.ld_unit_zero (S := S2048x1024) hz, View.ld_unit_zero (S := S1024x1024) hz, View.ld_unit_zero (S := S1x1024) hz]
  unfold k0_pay1
  simp only [shapeCast_self]
  rw [truncf_apply, addf_apply, mm_apply, broadcastTo_1b_ab_apply]
  rfl

def G0 (a0 : S8192x1024.Idx → EReal) (a1 : S1024x1024.Idx → EReal) (a2 : S1x1024.Idx → EReal) : S8192x1024.Idx → EReal :=
  fun i => (∑ d : Fin 1024, a0 (ix2 (i 0 : Fin 8192) d) * a1 (ix2 d (i 1 : Fin 1024))) + a2 (ix2 (0 : Fin 1) (i 1 : Fin 1024))

theorem G0_apply (a0 : S8192x1024.Idx → EReal) (a1 : S1024x1024.Idx → EReal) (a2 : S1x1024.Idx → EReal) (r : Fin 8192) (j : Fin 1024) :
    G0 a0 a1 a2 (ix2 r j) = (∑ d : Fin 1024, a0 (ix2 r d) * a1 (ix2 d j)) + a2 (ix2 (0 : Fin 1) j) := rfl

theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

-- point t's blocks are rows 2048·t … 2048·t + 2047 of the input, the whole weight and the whole bias row, whatever the arrays hold
theorem flushed_eq (X : S8192x1024.Idx → EReal) (W : S1024x1024.Idx → EReal) (B : S1x1024.Idx → EReal) (t : Fin cfg0.N) :
    (cfg0.win 3).cut (grid0.coords t) (Frame.out0_3 (F := Ideal) (((cfg0.win 0).blk t).view.read (Elt Ideal) X)
        (((cfg0.win 1).blk t).view.read (Elt Ideal) W) (((cfg0.win 2).blk t).view.read (Elt Ideal) B))
      = ((cfg0.win 3).blk t).view.read (Elt Ideal) (G0 X W B) := by
  obtain ⟨x0, x1, w0, w1, b0, b1, e0, e1⟩ := idx_facts t
  funext y
  have hy0 : (y 0).val < 2048 := (y 0).isLt
  have hy1 : (y 1).val < 1024 := (y 1).isLt
  have ht : t.val < 4 := t.isLt
  have hemb : ((cfg0.win 3).blk t).view.emb y = ix2 (⟨2048 * t.val + (y 0).val, by omega⟩ : Fin 8192) (⟨(y 1).val, hy1⟩ : Fin 1024) :=
    Shape.idx_ext₂ (by show win0_3.index t (0 : Fin 2) * 2048 + 1 * (y 0).val = 2048 * t.val + (y 0).val; omega)
      (by show win0_3.index t (1 : Fin 2) * 1024 + 1 * (y 1).val = (y 1).val; omega)
  have hinj : (cfg0.win 3).xinj (grid0.coords t) y = ix2 (⟨(y 0).val, hy0⟩ : Fin 2048) (⟨(y 1).val, hy1⟩ : Fin 1024) :=
    Shape.idx_ext₂ rfl rfl
  rw [View.read_apply, hemb, G0_apply]
  show Frame.out0_3 (F := Ideal) _ _ _ ((cfg0.win 3).xinj (grid0.coords t) y) = _
  rw [hinj, out0_3_apply]
  refine congrArg₂ _ (Finset.sum_congr rfl fun d _ => congrArg₂ _ ?_ ?_) ?_ <;> rw [View.read_apply]
  · exact congrArg X (Shape.idx_ext₂
      (by show win0_0.index t (0 : Fin 2) * 2048 + 1 * (y 0).val = 2048 * t.val + (y 0).val; omega)
      (by show win0_0.index t (1 : Fin 2) * 1024 + 1 * d.val = d.val; omega))
  · exact congrArg W (Shape.idx_ext₂
      (by show win0_1.index t (0 : Fin 2) * 1024 + 1 * d.val = d.val; omega)
      (by show win0_1.index t (1 : Fin 2) * 1024 + 1 * (y 1).val = (y 1).val; omega))
  · exact congrArg B (Shape.idx_ext₂
      (by show win0_2.index t (0 : Fin 2) * 1 + 1 * 0 = 0; omega)
      (by show win0_2.index t (1 : Fin 2) * 1024 + 1 * (y 1).val = (y 1).val; omega))

-- the four row blocks tile the array: row r lies in the block of point r / 2048
theorem cover (i : S8192x1024.Idx) :
    ∃ t : Fin cfg0.N, (cfg0.win 3).flush t = true ∧ i ∈ ((cfg0.win 3).blk t).view.set := by
  have hi0 : (i 0).val < 8192 := (i 0).isLt
  have hi1 : (i 1).val < 1024 := (i 1).isLt
  have ht : (i 0).val / 2048 < cfg0.N := by rw [show cfg0.N = 4 from N_0]; omega
  obtain ⟨-, -, -, -, -, -, e0, e1⟩ := idx_facts ⟨_, ht⟩
  refine ⟨⟨_, ht⟩, flush0_3 _, ?_⟩
  show i ∈ ((View.whole main_v11).slice (win0_3.rect ⟨_, ht⟩)).set
  rw [View.set_slice_whole, Rect.mem_set_unit]
  intro a
  match a with
  | ⟨0, _⟩ => show win0_3.index _ (0 : Fin 2) * 2048 ≤ (i 0).val ∧ (i 0).val < win0_3.index _ (0 : Fin 2) * 2048 + 2048; rw [e0]; show (i 0).val / 2048 * 2048 ≤ (i 0).val ∧ (i 0).val < (i 0).val / 2048 * 2048 + 2048; omega
  | ⟨1, _⟩ => show win0_3.index _ (1 : Fin 2) * 1024 ≤ (i 1).val ∧ (i 1).val < win0_3.index _ (1 : Fin 2) * 1024 + 1024; rw [e1]; omega

variable (V : (c : Dev nD) → (b : Ref sig .tc) → Buf (Elt Ideal) ((c : Thread nD τ).loc b))

theorem arr0_3_apply (c : Dev nD) (r : Fin 8192) (j : Fin 1024) :
    (Frame.dat0 (F := Ideal) V c).arrAt 3 cfg0.N (ix2 r j) = G0 (V c main_v0) (V c main_v3) (V c main_v8) (ix2 r j) :=
  congrFun ((Frame.dat0 (F := Ideal) V c).arrAt_eq_of_cover 3 _ (fun t _ => by
    unfold Dat.flushed; dsimp only [Frame.dat0]; exact flushed_eq (V c main_v0) (V c main_v3) (V c main_v8) t) cover) _

end Cert.KernelIdeal.Value0

end
-- ==== Proof.KI.R1Value.lean ====
import proofs.«430256_j43482248905221_3_alg».proof.Proof.KI.R0Value
import proofs.«430256_j43482248905221_3_alg».proof.Proof.KI.R1

noncomputable section

namespace Cert.KernelIdeal.Value1

open Cert.KernelIdeal Cert.KernelIdeal.Gen
open Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

def G1 (a0 : S8192x1024.Idx → EReal) (a1 : S1024x1024.Idx → EReal) (a2 : S1x1024.Idx → EReal) : S8192x1024.Idx → EReal :=
  Value0.G0 a0 a1 a2

theorem G1_apply (a0 : S8192x1024.Idx → EReal) (a1 : S1024x1024.Idx → EReal) (a2 : S1x1024.Idx → EReal) (r : Fin 8192) (j : Fin 1024) :
    G1 a0 a1 a2 (ix2 r j) = (∑ d : Fin 1024, a0 (ix2 r d) * a1 (ix2 d j)) + a2 (ix2 (0 : Fin 1) j) := rfl

-- region 1's windows have region 0's sizes and index maps, so region 0's block lemmas apply to its arrays
theorem arr1_3_apply (c : Dev nD) (r : Fin 8192) (j : Fin 1024) :
    (Frame.dat1 (F := Ideal) V c).arrAt 3 cfg1.N (ix2 r j) = G1 (V c main_v1) (V c main_v5) (V c main_v9) (ix2 r j) :=
  congrFun ((Frame.dat1 (F := Ideal) V c).arrAt_eq_of_cover 3 _ (fun t _ => by
    unfold Dat.flushed; dsimp only [Frame.dat1]; exact Value0.flushed_eq (V c main_v1) (V c main_v5) (V c main_v9) t) Value0.cover) _

end Cert.KernelIdeal.Value1

end
-- ==== Proof.KI.R2Pieces.lean ====
import proofs.«430256_j43482248905221_3_alg».proof.Proof.KI.R2
import Idealize.ShloMosaic.Lib.Pipeline.Value

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (V : (c : Dev nD) → (b : Ref sig .tc) → Buf (Elt F) ((c : Thread nD τ).loc b))

theorem hz2 : (![0, 0] : Fin 2 → Nat) = fun _ => 0 := funext fun a => by fin_cases a <;> rfl
theorem hz3 : (![0, 0, 0] : Fin 3 → Nat) = fun _ => 0 := funext fun a => by fin_cases a <;> rfl

def ktile2 (c : Dev nD) (t : Fin cfg2.N) : Vec F S1x512x1024 .bf16 :=
  View.ld (iblk2 V c 1 t) (Rect.unit (s := S1x2048x1024) (k2_off1 (grid2.coords t)) S1x512x1024.size (k2_off1_inb (grid2.coords t)))

def vtile2 (c : Dev nD) (t : Fin cfg2.N) : Vec F S1x512x1024 .bf16 :=
  View.ld (iblk2 V c 2 t) (Rect.unit (s := S1x2048x1024) (k2_off1 (grid2.coords t)) S1x512x1024.size (k2_off1_inb (grid2.coords t)))

def step2 (kq : Vec F S512x1024 .bf16) (kt vt : Vec F S1x512x1024 .bf16) (m l : Vec F S512x1 .f32) (acc : Vec F S512x1024 .f32) :
    Vec F S512x1 .f32 × Vec F S512x1 .f32 × Vec F S512x1024 .f32 :=
  (k2_pay2 (k2_pay9 kq kt m), k2_pay12 kq kt m m l, k2_pay1 (k2_pay10 kq kt m m) (k2_pay13 kq kt vt m) acc)

abbrev qproj2 (c : Dev nD) (t : Fin cfg2.N) : Vec F S512x1024 .bf16 :=
  k2_pay4 (iblk2 V c 0 t) (iblk2 V c 3 t) (iblk2 V c 4 t)

theorem stA_2 (c : Dev nD) (t : Fin cfg2.N) (h0 : t.val % 4 = 0) (h1 : ¬t.val % 4 = 3) :
    (stA V c t h0 h1).2
      = (qproj2 V c t, step2 (qproj2 V c t) (ktile2 V c t) (vtile2 V c t) k2_pay5 k2_pay6 k2_pay7) := by
  refine Prod.ext ?_ (Prod.ext ?_ (Prod.ext ?_ ?_)) <;> unfold stA <;> dsimp only
  on_goal 1 => rw [View.read_writes_eq_canon _ _ _ (scoverA_0 V c t h0 h1)]
  on_goal 2 => rw [View.read_writes_eq_canon _ _ _ (scoverA_1 V c t h0 h1)]
  on_goal 3 => rw [View.read_writes_eq_canon _ _ _ (scoverA_2 V c t h0 h1)]
  on_goal 4 => rw [View.read_writes_eq_canon _ _ _ (scoverA_3 V c t h0 h1)]
  all_goals
    unfold runA kernelRun2_A
    dsimp only
    sl_unfold_words
    first
      | rw [View.canon_cons_unit_zero (S := S512x1) hz2]
      | rw [View.canon_cons_unit_zero (S := S512x1024) hz2]
    simp only [View.readCov_unit_zero (S := S512x1024) _ hz2, View.readCov_unit_zero (S := S512x1) _ hz2,
      View.readAt_eq_ld, Memref.IsWhole.read_unread, View.ld_unit_zero (S := S1x512x1024) hz3,
      View.ld_unit_zero (S := S1024x1024) hz2, View.ld_unit_zero (S := S1x1024) hz2] <;> rfl

theorem read_sc0 (h : (scM2_0 : Memref sig .tc .vmem S512x1024 .bf16).IsWhole) (X : Vec F S512x1024 .bf16) :
    View.read (Elt F) (View.whole cc2_scratch0) (h.unread X) = X := h.read_unread X
theorem read_sc1 (h : (scM2_1 : Memref sig .tc .vmem S512x1 .f32).IsWhole) (X : Vec F S512x1 .f32) :
    View.read (Elt F) (View.whole cc2_scratch1) (h.unread X) = X := h.read_unread X
theorem read_sc2 (h : (scM2_2 : Memref sig .tc .vmem S512x1 .f32).IsWhole) (X : Vec F S512x1 .f32) :
    View.read (Elt F) (View.whole cc2_scratch2) (h.unread X) = X := h.read_unread X
theorem read_sc3 (h : (scM2_3 : Memref sig .tc .vmem S512x1024 .f32).IsWhole) (X : Vec F S512x1024 .f32) :
    View.read (Elt F) (View.whole cc2_scratch3) (h.unread X) = X := h.read_unread X

theorem stB_2 (c : Dev nD) (t : Fin cfg2.N) (h0 : ¬t.val % 4 = 0) (h1 : ¬t.val % 4 = 3) (p : St2 F) :
    (stB V c t h0 h1 p).2 = (p.2.1, step2 p.2.1 (ktile2 V c t) (vtile2 V c t) p.2.2.1 p.2.2.2.1 p.2.2.2.2) := by
  refine Prod.ext rfl (Prod.ext ?_ (Prod.ext ?_ ?_)) <;> unfold stB <;> dsimp only
  on_goal 1 => rw [View.read_writes_eq_canon _ _ _ (scoverB_1 V c t h0 h1 p)]
  on_goal 2 => rw [View.read_writes_eq_canon _ _ _ (scoverB_2 V c t h0 h1 p)]
  on_goal 3 => rw [View.read_writes_eq_canon _ _ _ (scoverB_3 V c t h0 h1 p)]
  all_goals
    unfold runB kernelRun2_B
    dsimp only
    sl_unfold_words
    rw [View.canon_unit_zero hz2]
    simp only [View.readAt_eq_ld, Memref.IsWhole.read_unread, read_sc0, read_sc1, read_sc2, read_sc3,
      View.ld_unit_zero (S := S512x1024) hz2, View.ld_unit_zero (S := S512x1) hz2]
    rfl

theorem stC_2 (c : Dev nD) (t : Fin cfg2.N) (h0 : ¬t.val % 4 = 0) (h1 : t.val % 4 = 3) (p : St2 F) :
    (stC V c t h0 h1 p).2 = (p.2.1, step2 p.2.1 (ktile2 V c t) (vtile2 V c t) p.2.2.1 p.2.2.2.1 p.2.2.2.2) := by
  refine Prod.ext rfl (Prod.ext ?_ (Prod.ext ?_ ?_)) <;> unfold stC <;> dsimp only
  on_goal 1 => rw [View.read_writes_eq_canon _ _ _ (scoverC_1 V c t h0 h1 p)]
  on_goal 2 => rw [View.read_writes_eq_canon _ _ _ (scoverC_2 V c t h0 h1 p)]
  on_goal 3 => rw [View.read_writes_eq_canon _ _ _ (scoverC_3 V c t h0 h1 p)]
  all_goals
    unfold runC kernelRun2_C
    dsimp only
    sl_unfold_words
    rw [View.canon_unit_zero hz2]
    simp only [View.readAt_eq_ld, Memref.IsWhole.read_unread, read_sc0, read_sc1, read_sc2, read_sc3,
      View.ld_unit_zero (S := S512x1024) hz2, View.ld_unit_zero (S := S512x1) hz2]
    rfl

-- The last tile's output block is the quotient of its new numerator by its new denominator.
theorem stC_o (c : Dev nD) (t : Fin cfg2.N) (h0 : ¬t.val % 4 = 0) (h1 : t.val % 4 = 3) (p : St2 F) :
    (stC V c t h0 h1 p).1 = k2_pay3 (stC V c t h0 h1 p).2.2.2.2 (stC V c t h0 h1 p).2.2.2.1 := by
  rw [stC_2]
  unfold stC
  dsimp only
  rw [View.read_writes_eq_canon _ _ _ (coverC_5 V c t h0 h1 p)]
  unfold runC kernelRun2_C
  dsimp only
  sl_unfold_words
  rw [View.canon_unit_zero hz3]
  simp only [View.readCov_unit_zero (S := S512x1024) _ hz2, View.readCov_unit_zero (S := S512x1) _ hz2,
    View.readAt_eq_ld, Memref.IsWhole.read_unread, read_sc0, read_sc1, read_sc2, read_sc3,
    View.ld_unit_zero (S := S512x1024) hz2, View.ld_unit_zero (S := S512x1) hz2]
  rfl

end Cert.KernelIdeal.Frame

end
-- ==== Proof.KI.R2Blocks.lean ====
import proofs.«430256_j43482248905221_3_alg».proof.Proof.KI.R2Pieces
import Idealize.ShloMosaic.Lib.ValueIdx

set_option maxRecDepth 16384

noncomputable section

namespace Cert.KernelIdeal.Value2

open Cert.KernelIdeal Cert.KernelIdeal.Gen
open Idealize.ShloMosaic Idealize.ShloMosaic.TcCoe Idealize.SL.Sem
open Idealize.ShloMosaic.Pipeline (Dat)
open Idealize.ShloMosaic.ValueIdx
open scoped BigOperators

variable {F : FTy → Type} [FloatOps F]
variable (V : (c : Dev nD) → (b : Ref sig .tc) → Buf (Elt F) ((c : Thread nD τ).loc b))

abbrev Idx2 (t : Fin grid2.N) : Prop :=
    win2_0.index t (0 : Fin 3) = t.val / 16 ∧ win2_0.index t (1 : Fin 3) = (t.val / 4) % 4 ∧ win2_0.index t (2 : Fin 3) = 0
    ∧ win2_1.index t (0 : Fin 3) = t.val / 16 ∧ win2_1.index t (1 : Fin 3) = 0 ∧ win2_1.index t (2 : Fin 3) = 0
    ∧ win2_2.index t (0 : Fin 3) = t.val / 16 ∧ win2_2.index t (1 : Fin 3) = 0 ∧ win2_2.index t (2 : Fin 3) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 3) = t.val / 16 ∧ win2_5.index t (1 : Fin 3) = (t.val / 4) % 4 ∧ win2_5.index t (2 : Fin 3) = 0
    ∧ (grid2.coords t 2).val = t.val % 4

theorem idx2 : ∀ t : Fin cfg2.N, Idx2 t := (by decide +kernel : ∀ t : Fin grid2.N, Idx2 t)

abbrev xq (c : Dev nD) (t : Fin cfg2.N) : Vec F S1x512x1024 .f32 := Frame.iblk2 V c 0 t
abbrev xk (c : Dev nD) (t : Fin cfg2.N) : Vec F S1x2048x1024 .bf16 := Frame.iblk2 V c 1 t
abbrev xv (c : Dev nD) (t : Fin cfg2.N) : Vec F S1x2048x1024 .bf16 := Frame.iblk2 V c 2 t
abbrev xw (c : Dev nD) (t : Fin cfg2.N) : Vec F S1024x1024 .bf16 := Frame.iblk2 V c 3 t
abbrev xb (c : Dev nD) (t : Fin cfg2.N) : Vec F S1x1024 .f32 := Frame.iblk2 V c 4 t
abbrev aq (c : Dev nD) : Vec F S4x2048x1024 .f32 := V c main_arg0
abbrev ak (c : Dev nD) : Vec F S4x2048x1024 .bf16 := V c main_v12
abbrev av (c : Dev nD) : Vec F S4x2048x1024 .bf16 := V c main_v14
abbrev aw (c : Dev nD) : Vec F S1024x1024 .bf16 := V c main_v7
abbrev ab (c : Dev nD) : Vec F S1x1024 .f32 := V c main_v10

theorem xq_apply (c : Dev nD) (t : Fin cfg2.N) (b : Fin 4) (row : Fin 2048) (r : Fin 512) (e : Fin 1024)
    (hb : b.val = t.val / 16) (hrow : row.val = 512 * ((t.val / 4) % 4) + r.val) :
    xq V c t (ix3 0 r e) = aq V c (ix3 b row e) := by
  obtain ⟨e0, e1, e2, -⟩ := idx2 t
  show V c main_arg0 (((cfg2.win 0).blk t).view.emb (ix3 0 r e)) = V c main_arg0 (ix3 b row e)
  refine congrArg (V c main_arg0) (funext fun a => Fin.ext ?_)
  match a with
  | ⟨0, _⟩ => show win2_0.index t (0 : Fin 3) * 1 + 1 * 0 = b.val; omega
  | ⟨1, _⟩ => show win2_0.index t (1 : Fin 3) * 512 + 1 * r.val = row.val; omega
  | ⟨2, _⟩ => show win2_0.index t (2 : Fin 3) * 1024 + 1 * e.val = e.val; omega

theorem xk_apply (c : Dev nD) (t : Fin cfg2.N) (b : Fin 4) (k : Fin 2048) (d : Fin 1024) (hb : b.val = t.val / 16) :
    xk V c t (ix3 0 k d) = ak V c (ix3 b k d) := by
  obtain ⟨-, -, -, e0, e1, e2, -⟩ := idx2 t
  show V c main_v12 (((cfg2.win 1).blk t).view.emb (ix3 0 k d)) = V c main_v12 (ix3 b k d)
  refine congrArg (V c main_v12) (funext fun a => Fin.ext ?_)
  match a with
  | ⟨0, _⟩ => show win2_1.index t (0 : Fin 3) * 1 + 1 * 0 = b.val; omega
  | ⟨1, _⟩ => show win2_1.index t (1 : Fin 3) * 2048 + 1 * k.val = k.val; omega
  | ⟨2, _⟩ => show win2_1.index t (2 : Fin 3) * 1024 + 1 * d.val = d.val; omega

theorem xv_apply (c : Dev nD) (t : Fin cfg2.N) (b : Fin 4) (k : Fin 2048) (j : Fin 1024) (hb : b.val = t.val / 16) :
    xv V c t (ix3 0 k j) = av V c (ix3 b k j) := by
  obtain ⟨-, -, -, -, -, -, e0, e1, e2, -⟩ := idx2 t
  show V c main_v14 (((cfg2.win 2).blk t).view.emb (ix3 0 k j)) = V c main_v14 (ix3 b k j)
  refine congrArg (V c main_v14) (funext fun a => Fin.ext ?_)
  match a with
  | ⟨0, _⟩ => show win2_2.index t (0 : Fin 3) * 1 + 1 * 0 = b.val; omega
  | ⟨1, _⟩ => show win2_2.index t (1 : Fin 3) * 2048 + 1 * k.val = k.val; omega
  | ⟨2, _⟩ => show win2_2.index t (2 : Fin 3) * 1024 + 1 * j.val = j.val; omega

theorem xw_apply (c : Dev nD) (t : Fin cfg2.N) (e d : Fin 1024) : xw V c t (ix2 e d) = aw V c (ix2 e d) := by
  obtain ⟨-, -, -, -, -, -, -, -, -, e0, e1, -⟩ := idx2 t
  show V c main_v7 (((cfg2.win 3).blk t).view.emb (ix2 e d)) = V c main_v7 (ix2 e d)
  refine congrArg (V c main_v7) (funext fun a => Fin.ext ?_)
  match a with
  | ⟨0, _⟩ => show win2_3.index t (0 : Fin 2) * 1024 + 1 * e.val = e.val; omega
  | ⟨1, _⟩ => show win2_3.index t (1 : Fin 2) * 1024 + 1 * d.val = d.val; omega

theorem xb_apply (c : Dev nD) (t : Fin cfg2.N) (d : Fin 1024) : xb V c t (ix2 0 d) = ab V c (ix2 0 d) := by
  obtain ⟨-, -, -, -, -, -, -, -, -, -, -, e0, e1, -⟩ := idx2 t
  show V c main_v10 (((cfg2.win 4).blk t).view.emb (ix2 0 d)) = V c main_v10 (ix2 0 d)
  refine congrArg (V c main_v10) (funext fun a => Fin.ext ?_)
  match a with
  | ⟨0, _⟩ => show win2_4.index t (0 : Fin 2) * 1 + 1 * 0 = 0; omega
  | ⟨1, _⟩ => show win2_4.index t (1 : Fin 2) * 1024 + 1 * d.val = d.val; omega

theorem ktile_apply (c : Dev nD) (t : Fin cfg2.N) (key : Fin 2048) (k : Fin 512) (d : Fin 1024)
    (hkey : key.val = 512 * (t.val % 4) + k.val) :
    Frame.ktile2 V c t (ix3 0 k d) = xk V c t (ix3 0 key d) := by
  have e3 : (grid2.coords t 2).val = t.val % 4 := (idx2 t).2.2.2.2.2.2.2.2.2.2.2.2.2.2.2.2
  unfold Frame.ktile2
  show xk V c t _ = xk V c t (ix3 0 key d)
  refine congrArg (xk V c t) (funext fun a => Fin.ext ?_)
  match a with
  | ⟨0, _⟩ => show k2_off1 (grid2.coords t) 0 + 1 * 0 = 0; rw [k2_off1_eq]; rfl
  | ⟨1, _⟩ => show k2_off1 (grid2.coords t) 1 + 1 * k.val = key.val; rw [k2_off1_eq, hkey, ← e3]; show 512 * _ + 1 * k.val = _; omega
  | ⟨2, _⟩ => show k2_off1 (grid2.coords t) 2 + 1 * d.val = d.val; rw [k2_off1_eq]; show 0 + 1 * d.val = d.val; omega

theorem vtile_apply (c : Dev nD) (t : Fin cfg2.N) (key : Fin 2048) (k : Fin 512) (j : Fin 1024)
    (hkey : key.val = 512 * (t.val % 4) + k.val) :
    Frame.vtile2 V c t (ix3 0 k j) = xv V c t (ix3 0 key j) := by
  have e3 : (grid2.coords t 2).val = t.val % 4 := (idx2 t).2.2.2.2.2.2.2.2.2.2.2.2.2.2.2.2
  unfold Frame.vtile2
  show xv V c t _ = xv V c t (ix3 0 key j)
  refine congrArg (xv V c t) (funext fun a => Fin.ext ?_)
  match a with
  | ⟨0, _⟩ => show k2_off1 (grid2.coords t) 0 + 1 * 0 = 0; rw [k2_off1_eq]; rfl
  | ⟨1, _⟩ => show k2_off1 (grid2.coords t) 1 + 1 * k.val = key.val; rw [k2_off1_eq, hkey, ← e3]; show 512 * _ + 1 * k.val = _; omega
  | ⟨2, _⟩ => show k2_off1 (grid2.coords t) 2 + 1 * j.val = j.val; rw [k2_off1_eq]; show 0 + 1 * j.val = j.val; omega

end Cert.KernelIdeal.Value2

end
-- ==== Proof.ERealSum.lean ====
import Idealize.ShloMosaic.PureOps.Ideal

noncomputable section

namespace Attn

open Finset

theorem coe_sum {ι : Type*} (s : Finset ι) (f : ι → ℝ) :
    ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

end Attn

end
-- ==== Proof.KI.R2Payload.lean ====
import proofs.«430256_j43482248905221_3_alg».proof.Proof.Gen.KernelIdeal.Skeleton
import proofs.«430256_j43482248905221_3_alg».proof.Proof.ERealSum
import Idealize.ShloMosaic.Lib.ValueIdx
import Idealize.ShloMosaic.Lib.Pipeline.Value
import Idealize.ShloMosaic.Lib.ValueLayout
import Idealize.ShloMosaic.PureOps.Ideal.Laws
import Mathlib.Data.Finset.Fold

noncomputable section

namespace Cert.KernelIdeal.Value2

open Cert.KernelIdeal Cert.KernelIdeal.Gen
open Idealize.ShloMosaic Idealize.ShloMosaic.TcCoe Idealize.SL.Sem
open Idealize.ShloMosaic.ValueIdx
open scoped BigOperators

def S (kqR kbR : Fin 512 → Fin 1024 → ℝ) (r k : Fin 512) : ℝ := ∑ d, kqR r d * kbR k d

section Layout
variable {α : Type}

theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

section Dot
variable {sl sr so : Shape} (D : DotDims sl sr so)

-- A free axis of the left operand reads the output index at that axis's place among the output's axes.
theorem lhsIdx_non {a : Fin sl.rank} (i : so.Idx) (q : D.contr.Idx) (o : ℕ) (hb : a ∉ D.lhsBatch := by decide)
    (hn : a ∈ D.lhsNonContracting := by decide) (ho : D.lhsBatch.length + D.lhsNonContracting.idxOf a = o := by rfl)
    (h : o < so.rank := by decide) : (D.lhsIdx i q a).val = (i ⟨o, h⟩).val := by
  subst ho
  unfold DotDims.lhsIdx
  rw [dif_neg hb, dif_pos hn]
  rfl

theorem rhsIdx_non {a : Fin sr.rank} (i : so.Idx) (q : D.contr.Idx) (o : ℕ) (hb : a ∉ D.rhsBatch := by decide)
    (hn : a ∈ D.rhsNonContracting := by decide)
    (ho : D.lhsBatch.length + D.lhsNonContracting.length + D.rhsNonContracting.idxOf a = o := by rfl)
    (h : o < so.rank := by decide) : (D.rhsIdx i q a).val = (i ⟨o, h⟩).val := by
  subst ho
  unfold DotDims.rhsIdx
  rw [dif_neg hb, dif_pos hn]
  rfl

-- A product into a zero accumulator that contracts one axis of n positions is, at an index, the sum over them.
theorem mm_apply (n : ℕ) (hr : D.contr.rank = 1) (hs : D.contr.size ⟨0, by omega⟩ = n) (A : FVec Ideal sl .bf16)
    (B : FVec Ideal sr .bf16) (i : so.Idx) (L : Fin n → sl.Idx) (R : Fin n → sr.Idx)
    (hL : ∀ q a, (D.lhsIdx i q a).val = (L (contrEquiv1 D n hr hs q) a).val)
    (hR : ∀ q a, (D.rhsIdx i q a).val = (R (contrEquiv1 D n hr hs q) a).val) :
    matmul D none A B (constant (F := Ideal) so .f32 0x00000000#32) i = ∑ k, A (L k) * B (R k) := by
  simp only [matmul]
  rw [Ideal.matmul_constant_zero_apply, ← Equiv.sum_comp (contrEquiv1 D n hr hs)]
  exact Finset.sum_congr rfl fun q _ => by
    rw [funext fun a => Fin.ext (hL q a), funext fun a => Fin.ext (hR q a)]

end Dot

theorem mm_pj_apply (A : FVec Ideal S512x1024 .bf16) (B : FVec Ideal S1024x1024 .bf16) (r : Fin 512) (j : Fin 1024) :
    matmul dot_S512x1024_S1024x1024_S512x1024_1_0_0_1_n_n none A B (constant (F := Ideal) S512x1024 .f32 0x00000000#32) (ix2 r j)
      = ∑ e : Fin 1024, A (ix2 r e) * B (ix2 e j) :=
  mm_apply _ 1024 rfl rfl A B _ (fun e => ix2 r e) (fun e => ix2 e j)
    (fun q a => match a with
      | ⟨0, _⟩ => lhsIdx_non (a := 0) _ _ q 0
      | ⟨1, _⟩ => DotDims.lhsIdx_val_of_single _ rfl _ q)
    (fun q a => match a with
      | ⟨0, _⟩ => DotDims.rhsIdx_val_of_single _ rfl _ q
      | ⟨1, _⟩ => rhsIdx_non (a := 1) _ _ q 1)

theorem mm_sc_apply (A B : FVec Ideal S512x1024 .bf16) (r k : Fin 512) :
    matmul dot_S512x1024_S512x1024_S512x512_1_1_0_0_n_n none A B (constant (F := Ideal) S512x512 .f32 0x00000000#32) (ix2 r k)
      = ∑ d : Fin 1024, A (ix2 r d) * B (ix2 k d) :=
  mm_apply _ 1024 rfl rfl A B _ (fun d => ix2 r d) (fun d => ix2 k d)
    (fun q a => match a with
      | ⟨0, _⟩ => lhsIdx_non (a := 0) _ _ q 0
      | ⟨1, _⟩ => DotDims.lhsIdx_val_of_single _ rfl _ q)
    (fun q a => match a with
      | ⟨0, _⟩ => rhsIdx_non (a := 0) _ _ q 1
      | ⟨1, _⟩ => DotDims.rhsIdx_val_of_single _ rfl _ q)

theorem mm_pv_apply (A : FVec Ideal S512x512 .bf16) (B : FVec Ideal S512x1024 .bf16) (r : Fin 512) (c : Fin 1024) :
    matmul dot_S512x512_S512x1024_S512x1024_1_0_0_1_n_n none A B (constant (F := Ideal) S512x1024 .f32 0x00000000#32) (ix2 r c)
      = ∑ k : Fin 512, A (ix2 r k) * B (ix2 k c) :=
  mm_apply _ 512 rfl rfl A B _ (fun k => ix2 r k) (fun k => ix2 k c)
    (fun q a => match a with
      | ⟨0, _⟩ => lhsIdx_non (a := 0) _ _ q 0
      | ⟨1, _⟩ => DotDims.lhsIdx_val_of_single _ rfl _ q)
    (fun q a => match a with
      | ⟨0, _⟩ => DotDims.rhsIdx_val_of_single _ rfl _ q
      | ⟨1, _⟩ => rhsIdx_non (a := 1) _ _ q 1)

theorem ofBits_inv32 : Ideal.ofBits .f32 0x3D000000#32 = ((1 / 32 : ℝ) : EReal) := by
  simp [Ideal.ofBits, Ideal.ieee, -EReal.coe_mul]; norm_num

theorem ofBits_neg_inf : Ideal.ofBits .f32 0xFF800000#32 = ⊥ := by
  simp [Ideal.ofBits, Ideal.ieee]

theorem ofBits_init_real : ∃ x : ℝ, Ideal.ofBits .f32 0xFF333332#32 = ((x : ℝ) : EReal) := by
  simp [Ideal.ofBits, Ideal.ieee, -EReal.coe_mul]
  exact ⟨_, (EReal.coe_neg _).symm⟩

theorem lift_row (h : S512x512.Reduces [1] S512) (r k : Fin 512) : h.lift (ix1 r) k = ix2 r k :=
  funext fun a => Fin.ext (by
    match a with
    | ⟨0, _⟩ => rfl
    | ⟨1, _⟩ => rfl)

theorem rowsum_apply (src : FVec Ideal S512x512 .f32) (h : S512x512.Reduces [1] S512) (hφ : FKind.Formats .f32)
    (hacc : (0x00000000#32 : BitVec 32) = FKind.add.neutral .f32 hφ) (r : Fin 512) :
    multiReduction .add [1] S512 src 0x00000000#32 h hφ hacc (ix1 r) = ∑ k : Fin 512, src (ix2 r k) :=
  (Ideal.multiReduction_add_single src 0x00000000#32 h hφ hacc (ix1 r)).trans
    (Finset.sum_congr rfl fun k _ => congrArg src (lift_row h r k))

theorem rowmax_apply (src : FVec Ideal S512x512 .f32) (h : S512x512.Reduces [1] S512) (hφ : FKind.Formats .f32)
    (hacc : (0xFF800000#32 : BitVec 32) = FKind.maximumf.neutral .f32 hφ) (r : Fin 512) :
    multiReduction .maximumf [1] S512 src 0xFF800000#32 h hφ hacc (ix1 r)
      = (Finset.univ : Finset (Fin 512)).fold max ⊥ (fun k => src (ix2 r k)) := by
  refine (Ideal.multiReduction_maximumf_single src 0xFF800000#32 h hφ hacc (ix1 r)).trans ?_
  have e : (src ∘ h.lift (ix1 r)) = fun k : Fin 512 => src (ix2 r k) := funext fun k => congrArg src (lift_row h r k)
  have b : FloatOps.ofBits (F := Ideal) .f32 0xFF800000#32 = ⊥ := ofBits_neg_inf
  rw [e, b]
  rfl

-- The maximum is at least the real a, and no entry is +∞.
theorem max_fold_real {ι : Type*} (s : Finset ι) (a : ℝ) (f : ι → EReal) (hf : ∀ k, ∃ x : ℝ, f k = ((x : ℝ) : EReal)) :
    ∃ x : ℝ, max ((a : ℝ) : EReal) (s.fold max ⊥ f) = ((x : ℝ) : EReal) := by
  have hbot : max ((a : ℝ) : EReal) (s.fold max ⊥ f) ≠ ⊥ :=
    ne_of_gt (lt_of_lt_of_le (EReal.bot_lt_coe a) (le_max_left _ _))
  have htop : max ((a : ℝ) : EReal) (s.fold max ⊥ f) ≠ ⊤ :=
    ne_of_lt (max_lt (EReal.coe_lt_top a) ((Finset.fold_max_lt _).2 ⟨bot_lt_top, fun k _ => by
      obtain ⟨x, hx⟩ := hf k
      rw [hx]; exact EReal.coe_lt_top x⟩))
  exact ⟨_, (EReal.coe_toReal htop hbot).symm⟩

theorem pay4_apply (x0 : Vec Ideal S1x512x1024 .f32) (x3 : Vec Ideal S1024x1024 .bf16) (x4 : Vec Ideal S1x1024 .f32)
    (qR : Fin 512 → Fin 1024 → ℝ) (WT : Fin 1024 → Fin 1024 → ℝ) (bR : Fin 1024 → ℝ)
    (hx0 : ∀ (r : Fin 512) (e : Fin 1024), x0 (ix3 0 r e) = ((qR r e : ℝ) : EReal))
    (hx3 : ∀ (e d : Fin 1024), x3 (ix2 e d) = ((WT e d : ℝ) : EReal))
    (hx4 : ∀ d : Fin 1024, x4 (ix2 0 d) = ((bR d : ℝ) : EReal))
    (r : Fin 512) (d : Fin 1024) :
    k2_pay4 (F := Ideal) x0 x3 x4 (ix2 r d) = ((((∑ e, qR r e * WT e d) + bR d) * (1 / 32) : ℝ) : EReal) := by
  have hsum : ∀ (h1 : S1x512x1024.ShapeCasts S512x1024) (h2 : FTy.bits .bf16 < FTy.bits .f32),
      ∑ e : Fin 1024, (truncf .bf16 (shapeCast S512x1024 x0 h1) h2 : FVec Ideal S512x1024 .bf16) (ix2 r e) * x3 (ix2 e d)
        = ((∑ e, qR r e * WT e d : ℝ) : EReal) := by
    intro h1 h2
    rw [← Attn.coe_sum]
    exact Finset.sum_congr rfl fun e _ => by rw [truncf_apply, shapeCast_1ab_ab_apply, hx0, hx3, EReal.coe_mul]
  unfold k2_pay4
  simp only [shapeCast_self]
  rw [truncf_apply, mulf_apply, addf_apply, mm_pj_apply, broadcastTo_1b_ab_apply, broadcast_apply, hsum, hx4]
  show (_ + _) * Ideal.ofBits .f32 0x3D000000#32 = _
  rw [ofBits_inv32, ← EReal.coe_add, ← EReal.coe_mul]

theorem pay5_real : ∃ x : ℝ, ∀ i : S512x1.Idx, k2_pay5 (F := Ideal) i = ((x : ℝ) : EReal) := by
  obtain ⟨x, hx⟩ := ofBits_init_real
  refine ⟨x, fun i => ?_⟩
  unfold k2_pay5
  simp only [shapeCast_self]
  exact hx

theorem pay6_apply (i : S512x1.Idx) : k2_pay6 (F := Ideal) i = 0 := by
  unfold k2_pay6
  simp only [shapeCast_self]
  exact Ideal.ofBits_zero_f32

theorem pay7_apply (i : S512x1024.Idx) : k2_pay7 (F := Ideal) i = 0 := by
  unfold k2_pay7
  simp only [shapeCast_self]
  exact Ideal.ofBits_zero_f32

theorem pay2_apply (v16 : FVec Ideal S512x1 .f32) (i : S512x1.Idx) : k2_pay2 (F := Ideal) v16 i = v16 i := by
  unfold k2_pay2
  simp only [shapeCast_self]

theorem pay3_apply (acc : Vec Ideal S512x1024 .f32) (l : Vec Ideal S512x1 .f32)
    (accR : Fin 512 → Fin 1024 → ℝ) (lR : Fin 512 → ℝ)
    (hacc : ∀ (r : Fin 512) (c : Fin 1024), acc (ix2 r c) = ((accR r c : ℝ) : EReal))
    (hl : ∀ r : Fin 512, l (ix2 r 0) = ((lR r : ℝ) : EReal))
    (r : Fin 512) (c : Fin 1024) (hne : lR r ≠ 0) :
    k2_pay3 (F := Ideal) acc l (ix3 0 r c) = ((accR r c / lR r : ℝ) : EReal) := by
  unfold k2_pay3
  rw [shapeCast_ab_1ab_apply, divf_apply, broadcastTo_a1_ab_apply, hacc, hl, Ideal.div_coe hne, ← EReal.coe_mul,
    mul_one_div]

section Payloads
variable (kq : Vec Ideal S512x1024 .bf16) (kb vb : Vec Ideal S1x512x1024 .bf16) (m l : Vec Ideal S512x1 .f32)
  (acc : Vec Ideal S512x1024 .f32)
  (kqR kbR vbR accR : Fin 512 → Fin 1024 → ℝ) (mR mR' lR : Fin 512 → ℝ)
  (hkq : ∀ (r : Fin 512) (d : Fin 1024), kq (ix2 r d) = ((kqR r d : ℝ) : EReal))
  (hkb : ∀ (k : Fin 512) (d : Fin 1024), kb (ix3 0 k d) = ((kbR k d : ℝ) : EReal))
  (hvb : ∀ (k : Fin 512) (c : Fin 1024), vb (ix3 0 k c) = ((vbR k c : ℝ) : EReal))
  (hm : ∀ r : Fin 512, m (ix2 r 0) = ((mR r : ℝ) : EReal))
  (hm' : ∀ r : Fin 512, k2_pay9 (F := Ideal) kq kb m (ix2 r 0) = ((mR' r : ℝ) : EReal))
  (hl : ∀ r : Fin 512, l (ix2 r 0) = ((lR r : ℝ) : EReal))
  (hacc : ∀ (r : Fin 512) (c : Fin 1024), acc (ix2 r c) = ((accR r c : ℝ) : EReal))

include hkq hkb in
theorem pay8_coe (r k : Fin 512) : k2_pay8 (F := Ideal) kq kb (ix2 r k) = ((S kqR kbR r k : ℝ) : EReal) := by
  unfold k2_pay8 S
  rw [mm_sc_apply, ← Attn.coe_sum]
  exact Finset.sum_congr rfl fun d _ => by rw [shapeCast_1ab_ab_apply, hkq, hkb, EReal.coe_mul]

theorem pay9_apply (r : Fin 512) :
    k2_pay9 (F := Ideal) kq kb m (ix2 r 0)
      = max (m (ix2 r 0)) ((Finset.univ : Finset (Fin 512)).fold max ⊥ fun k => k2_pay8 (F := Ideal) kq kb (ix2 r k)) := by
  unfold k2_pay9
  dsimp only
  rw [maximumf_apply]
  refine congrArg (max (m (ix2 r 0))) ?_
  refine (shapeCast_a_a1_apply _ _ r 0).trans ?_
  exact rowmax_apply _ _ _ _ r

include hkq hkb hm in
-- The new running maximum is at least the old one, a real, and no score is +∞.
theorem pay9_real (r : Fin 512) : ∃ x : ℝ, k2_pay9 (F := Ideal) kq kb m (ix2 r 0) = ((x : ℝ) : EReal) := by
  rw [pay9_apply, hm]
  exact max_fold_real _ _ _ fun k => ⟨_, pay8_coe kq kb kqR kbR hkq hkb r k⟩

include hkq hkb hm hm'

theorem pay10_coe (r : Fin 512) :
    k2_pay10 (F := Ideal) kq kb m m (ix2 r 0) = ((Real.exp (mR r - mR' r) : ℝ) : EReal) := by
  show Ideal.exp (m (ix2 r 0) - k2_pay9 (F := Ideal) kq kb m (ix2 r 0)) = _
  rw [hm, hm', ← EReal.coe_sub, Ideal.exp_coe]

theorem pay11_coe (r k : Fin 512) :
    k2_pay11 (F := Ideal) kq kb m (ix2 r k) = ((Real.exp (S kqR kbR r k - mR' r) : ℝ) : EReal) := by
  unfold k2_pay11
  show Ideal.exp (k2_pay8 (F := Ideal) kq kb (ix2 r k) - broadcastTo S512x512 (k2_pay9 (F := Ideal) kq kb m) _ (ix2 r k)) = _
  rw [broadcastTo_a1_ab_apply, pay8_coe kq kb kqR kbR hkq hkb, hm', ← EReal.coe_sub, Ideal.exp_coe]

include hl in
theorem pay12_apply (r : Fin 512) :
    k2_pay12 (F := Ideal) kq kb m m l (ix2 r 0)
      = ((Real.exp (mR r - mR' r) * lR r + ∑ k, Real.exp (S kqR kbR r k - mR' r) : ℝ) : EReal) := by
  have h2 : ∀ (h : S512x512.Reduces [1] S512) (hφ : FKind.Formats .f32)
      (hacc : (0x00000000#32 : BitVec 32) = FKind.add.neutral .f32 hφ) (hc : S512.ShapeCasts S512x1),
      shapeCast S512x1 (multiReduction .add [1] S512 (k2_pay11 (F := Ideal) kq kb m) 0x00000000#32 h hφ hacc) hc (ix2 r 0)
        = ((∑ k, Real.exp (S kqR kbR r k - mR' r) : ℝ) : EReal) := by
    intro h hφ hacc hc
    refine (shapeCast_a_a1_apply _ _ r 0).trans ?_
    refine (rowsum_apply _ _ _ _ r).trans ?_
    rw [← Attn.coe_sum]
    exact Finset.sum_congr rfl fun k _ => pay11_coe kq kb m kqR kbR mR mR' hkq hkb hm hm' r k
  unfold k2_pay12
  simp only [shapeCast_self]
  rw [addf_apply, mulf_apply]
  refine (congrArg₂ (· + ·) (congrArg₂ (· * ·) (pay10_coe kq kb m kqR kbR mR mR' hkq hkb hm hm' r) (hl r)) (h2 _ _ _ _)).trans ?_
  rw [← EReal.coe_mul, ← EReal.coe_add]

include hvb hacc in
theorem acc_apply (r : Fin 512) (c : Fin 1024) :
    k2_pay1 (F := Ideal) (k2_pay10 (F := Ideal) kq kb m m) (k2_pay13 (F := Ideal) kq kb vb m) acc (ix2 r c)
      = ((Real.exp (mR r - mR' r) * accR r c + ∑ k, Real.exp (S kqR kbR r k - mR' r) * vbR k c : ℝ) : EReal) := by
  have h2 : k2_pay13 (F := Ideal) kq kb vb m (ix2 r c)
      = ((∑ k, Real.exp (S kqR kbR r k - mR' r) * vbR k c : ℝ) : EReal) := by
    unfold k2_pay13
    rw [mm_pv_apply, ← Attn.coe_sum]
    exact Finset.sum_congr rfl fun k _ => by
      rw [truncf_apply, shapeCast_1ab_ab_apply, pay11_coe kq kb m kqR kbR mR mR' hkq hkb hm hm' r k, hvb, EReal.coe_mul]
  unfold k2_pay1
  simp only [shapeCast_self]
  rw [addf_apply, mulf_apply, broadcastTo_a1_ab_apply, pay10_coe kq kb m kqR kbR mR mR' hkq hkb hm hm' r, hacc, h2,
    ← EReal.coe_mul, ← EReal.coe_add]

end Payloads

end Cert.KernelIdeal.Value2

end
-- ==== Proof.AttnMath.lean ====
import Idealize.ShloMosaic.PureOps.Ideal

noncomputable section

namespace Attn

open Finset

def den (mu : ℕ → ℝ) (s : ℕ → Fin 512 → ℝ) : ℕ → ℝ
  | 0 => 0
  | n + 1 => Real.exp (mu n - mu (n + 1)) * den mu s n + ∑ k, Real.exp (s n k - mu (n + 1))

def num (mu : ℕ → ℝ) (s v : ℕ → Fin 512 → ℝ) : ℕ → ℝ
  | 0 => 0
  | n + 1 => Real.exp (mu n - mu (n + 1)) * num mu s v n + ∑ k, Real.exp (s n k - mu (n + 1)) * v n k

theorem exp_sub_mul_exp_sub (a b c : ℝ) : Real.exp (a - b) * Real.exp (c - a) = Real.exp (c - b) := by
  rw [← Real.exp_add]
  congr 1
  ring

theorem den_eq (mu : ℕ → ℝ) (s : ℕ → Fin 512 → ℝ) (n : ℕ) :
    den mu s n = ∑ j ∈ range n, ∑ k, Real.exp (s j k - mu n) := by
  induction n with
  | zero => simp [den]
  | succ n ih =>
    rw [den, ih, Finset.sum_range_succ, Finset.mul_sum]
    congr 1
    refine Finset.sum_congr rfl fun j _ => ?_
    rw [Finset.mul_sum]
    refine Finset.sum_congr rfl fun k _ => ?_
    exact exp_sub_mul_exp_sub _ _ _

theorem num_eq (mu : ℕ → ℝ) (s v : ℕ → Fin 512 → ℝ) (n : ℕ) :
    num mu s v n = ∑ j ∈ range n, ∑ k, Real.exp (s j k - mu n) * v j k := by
  induction n with
  | zero => simp [num]
  | succ n ih =>
    rw [num, ih, Finset.sum_range_succ, Finset.mul_sum]
    congr 1
    refine Finset.sum_congr rfl fun j _ => ?_
    rw [Finset.mul_sum]
    refine Finset.sum_congr rfl fun k _ => ?_
    rw [← mul_assoc, exp_sub_mul_exp_sub]

theorem den_pos (mu : ℕ → ℝ) (s : ℕ → Fin 512 → ℝ) {n : ℕ} (hn : 0 < n) : 0 < den mu s n := by
  rw [den_eq]
  refine Finset.sum_pos (fun j _ => ?_) ⟨0, Finset.mem_range.mpr hn⟩
  exact Finset.sum_pos (fun k _ => Real.exp_pos _) Finset.univ_nonempty

def smean (s v : ℕ → Fin 512 → ℝ) (M : ℝ) (n : ℕ) : ℝ :=
  ∑ j ∈ range n, ∑ k, (Real.exp (s j k - M) / ∑ j' ∈ range n, ∑ k', Real.exp (s j' k' - M)) * v j k

theorem smean_eq_div (s v : ℕ → Fin 512 → ℝ) (M : ℝ) (n : ℕ) :
    smean s v M n = (∑ j ∈ range n, ∑ k, Real.exp (s j k - M) * v j k) /
      ∑ j ∈ range n, ∑ k, Real.exp (s j k - M) := by
  unfold smean
  rw [Finset.sum_div]
  refine Finset.sum_congr rfl fun j _ => ?_
  rw [Finset.sum_div]
  refine Finset.sum_congr rfl fun k _ => ?_
  rw [div_mul_eq_mul_div]

theorem sum_exp_shift_mul (s w : ℕ → Fin 512 → ℝ) (M M' : ℝ) (n : ℕ) :
    ∑ j ∈ range n, ∑ k, Real.exp (s j k - M') * w j k =
      Real.exp (M - M') * ∑ j ∈ range n, ∑ k, Real.exp (s j k - M) * w j k := by
  rw [Finset.mul_sum]
  refine Finset.sum_congr rfl fun j _ => ?_
  rw [Finset.mul_sum]
  refine Finset.sum_congr rfl fun k _ => ?_
  rw [← mul_assoc, ← Real.exp_add]
  have h : M - M' + (s j k - M) = s j k - M' := by ring
  rw [h]

theorem sum_exp_shift (s : ℕ → Fin 512 → ℝ) (M M' : ℝ) (n : ℕ) :
    ∑ j ∈ range n, ∑ k, Real.exp (s j k - M') =
      Real.exp (M - M') * ∑ j ∈ range n, ∑ k, Real.exp (s j k - M) := by
  simpa using sum_exp_shift_mul s (fun _ _ => 1) M M' n

theorem div_shift (s v : ℕ → Fin 512 → ℝ) (M M' : ℝ) (n : ℕ) :
    (∑ j ∈ range n, ∑ k, Real.exp (s j k - M') * v j k) / (∑ j ∈ range n, ∑ k, Real.exp (s j k - M')) =
      (∑ j ∈ range n, ∑ k, Real.exp (s j k - M) * v j k) / ∑ j ∈ range n, ∑ k, Real.exp (s j k - M) := by
  rw [sum_exp_shift_mul s v M M' n, sum_exp_shift s M M' n]
  exact mul_div_mul_left _ _ (Real.exp_ne_zero _)

theorem online_eq_smean (mu : ℕ → ℝ) (s v : ℕ → Fin 512 → ℝ) (M : ℝ) {n : ℕ} (hn : 0 < n) :
    num mu s v n / den mu s n = smean s v M n := by
  have _ := hn
  rw [num_eq, den_eq, smean_eq_div]
  exact div_shift s v M (mu n) n

theorem smean_shift (s v : ℕ → Fin 512 → ℝ) (M M' : ℝ) (n : ℕ) : smean s v M n = smean s v M' n := by
  rw [smean_eq_div, smean_eq_div]
  exact div_shift s v M' M n

theorem sum_range_mul_blocks (f : ℕ → ℝ) (n m : ℕ) :
    ∑ t ∈ range (m * n), f t = ∑ j ∈ range m, ∑ k ∈ range n, f (n * j + k) := by
  induction m with
  | zero => simp
  | succ m ih =>
    rw [Nat.succ_mul, Finset.sum_range_add, ih, Finset.sum_range_succ, Nat.mul_comm m n]

theorem sum_keys_tiles (f : ℕ → ℝ) :
    ∑ t : Fin 2048, f t.val = ∑ j ∈ range 4, ∑ k : Fin 512, f (512 * j + k.val) := by
  rw [Fin.sum_univ_eq_sum_range f 2048]
  refine (sum_range_mul_blocks f 512 4).trans ?_
  refine Finset.sum_congr rfl fun j _ => ?_
  exact (Fin.sum_univ_eq_sum_range (fun k => f (512 * j + k)) 512).symm

theorem sum_scaled_left (x y : Fin 1024 → ℝ) :
    ∑ d, (x d * (1 / 32)) * y d = (∑ d, x d * y d) / 32 := by
  rw [Finset.sum_div]
  refine Finset.sum_congr rfl fun d _ => ?_
  ring

end Attn

end
-- ==== Proof.AttnSpec.lean ====
import proofs.«430256_j43482248905221_3_alg».proof.Proof.AttnMath

noncomputable section

namespace Attn

open Finset

def proj (x : Fin 8192 → Fin 1024 → ℝ) (WT : Fin 1024 → Fin 1024 → ℝ) (b : Fin 1024 → ℝ) (r : Fin 8192) (j : Fin 1024) : ℝ :=
  (∑ d, x r d * WT d j) + b j

def qs (q : Fin 4 → Fin 2048 → Fin 1024 → ℝ) (WqT : Fin 1024 → Fin 1024 → ℝ) (bq : Fin 1024 → ℝ)
    (b : Fin 4) (s : Fin 2048) (d : Fin 1024) : ℝ :=
  ((∑ e, q b s e * WqT e d) + bq d) * (1 / 32)

def scores (qp kp : Fin 4 → Fin 2048 → Fin 1024 → ℝ) (b : Fin 4) (s t : Fin 2048) : ℝ :=
  ∑ d, qp b s d * kp b t d

def attnOut (sc : Fin 4 → Fin 2048 → Fin 2048 → ℝ) (vp : Fin 4 → Fin 2048 → Fin 1024 → ℝ) (M : ℝ)
    (b : Fin 4) (s : Fin 2048) (c : Fin 1024) : ℝ :=
  ∑ t, (Real.exp (sc b s t - M) / ∑ t', Real.exp (sc b s t' - M)) * vp b t c

def lin (x : Fin 4 → Fin 2048 → Fin 1024 → ℝ) (W : Fin 1024 → Fin 1024 → ℝ) (b : Fin 1024 → ℝ)
    (bi : Fin 4) (s : Fin 2048) (j : Fin 1024) : ℝ :=
  (∑ d, x bi s d * W j d) + b j

def scoresRef (qp kp : Fin 4 → Fin 2048 → Fin 1024 → ℝ) (b : Fin 4) (s t : Fin 2048) : ℝ :=
  (∑ j, qp b s j * kp b t j) / 32

def attnRef (q k v : Fin 4 → Fin 2048 → Fin 1024 → ℝ) (Wq Wk Wv : Fin 1024 → Fin 1024 → ℝ) (bq bk bv : Fin 1024 → ℝ) :
    Fin 4 → Fin 2048 → Fin 1024 → ℝ :=
  attnOut (scoresRef (lin q Wq bq) (lin k Wk bk)) (lin v Wv bv) 0

theorem attnOut_shift (sc : Fin 4 → Fin 2048 → Fin 2048 → ℝ) (vp : Fin 4 → Fin 2048 → Fin 1024 → ℝ) (M M' : ℝ) :
    attnOut sc vp M = attnOut sc vp M' := by
  funext b s c
  unfold attnOut
  have hD : ∑ t', Real.exp (sc b s t' - M) = Real.exp (M' - M) * ∑ t', Real.exp (sc b s t' - M') := by
    rw [Finset.mul_sum]
    refine Finset.sum_congr rfl fun t _ => ?_
    rw [← Real.exp_add]
    congr 1
    ring
  refine Finset.sum_congr rfl fun t _ => ?_
  have hN : Real.exp (sc b s t - M) = Real.exp (M' - M) * Real.exp (sc b s t - M') := by
    rw [← Real.exp_add]
    congr 1
    ring
  rw [hD, hN, mul_div_mul_left _ _ (Real.exp_ne_zero _)]

theorem scores_qs (q : Fin 4 → Fin 2048 → Fin 1024 → ℝ) (Wq WqT : Fin 1024 → Fin 1024 → ℝ) (bq : Fin 1024 → ℝ)
    (kp : Fin 4 → Fin 2048 → Fin 1024 → ℝ) (hT : ∀ e d, WqT e d = Wq d e) :
    scores (qs q WqT bq) kp = scoresRef (lin q Wq bq) kp := by
  funext b s t
  unfold scores scoresRef qs lin
  simp only [hT]
  exact sum_scaled_left (fun d => (∑ e, q b s e * Wq d e) + bq d) (fun d => kp b t d)

end Attn

end
-- ==== Proof.KI.R2Inv.lean ====
import proofs.«430256_j43482248905221_3_alg».proof.Proof.KI.R2Blocks
import proofs.«430256_j43482248905221_3_alg».proof.Proof.KI.R2Payload
import proofs.«430256_j43482248905221_3_alg».proof.Proof.AttnSpec
import proofs.«430256_j43482248905221_3_alg».proof.Proof.ERealSum

noncomputable section

namespace Cert.KernelIdeal.Value2

open Cert.KernelIdeal Cert.KernelIdeal.Gen
open Idealize.ShloMosaic Idealize.ShloMosaic.TcCoe Idealize.SL.Sem
open Idealize.ShloMosaic.Pipeline (Dat)
open Idealize.ShloMosaic.ValueIdx
open scoped BigOperators

open Cert.KernelIdeal.Frame (St2 step2 ktile2 vtile2 qproj2)

variable (V : (c : Dev nD) → (b : Ref sig .tc) → Buf (Elt Ideal) ((c : Thread nD τ).loc b))

def keyN (x : ℕ) : Fin 2048 := ⟨x % 2048, Nat.mod_lt _ (by decide)⟩

theorem keyN_val (t : Fin 2048) : keyN t.val = t := Fin.ext (Nat.mod_eq_of_lt t.isLt)

def rowOf (qi : Fin 4) (r : Fin 512) : Fin 2048 := ⟨512 * qi.val + r.val, by omega⟩

def sT (q : Fin 4 → Fin 2048 → Fin 1024 → ℝ) (WqT : Fin 1024 → Fin 1024 → ℝ) (bq : Fin 1024 → ℝ)
    (kp : Fin 4 → Fin 2048 → Fin 1024 → ℝ) (b : Fin 4) (s : Fin 2048) : ℕ → Fin 512 → ℝ :=
  fun n k => Attn.scores (Attn.qs q WqT bq) kp b s (keyN (512 * n + k.val))

def vT (vp : Fin 4 → Fin 2048 → Fin 1024 → ℝ) (b : Fin 4) (j : Fin 1024) : ℕ → Fin 512 → ℝ :=
  fun n k => vp b (keyN (512 * n + k.val)) j

def mxAt (c : Dev nD) (n : ℕ) (r : Fin 512) : ℝ :=
  if h : n < cfg2.N then ((Frame.outsAt2 V c n h).2.2.1 (ix2 r 0)).toReal else 0

def mu (c : Dev nD) (g : ℕ) (r : Fin 512) : ℕ → ℝ
  | 0 => (k2_pay5 (F := Ideal) (ix2 r 0)).toReal
  | k + 1 => mxAt V c (4 * g + k) r

theorem mu_succ (c : Dev nD) (t : Fin cfg2.N) (g k : ℕ) (e : t.val = 4 * g + k) (r : Fin 512) :
    mu V c g r (k + 1) = ((Frame.outsAt2 V c t.val t.isLt).2.2.1 (ix2 r 0)).toReal := by
  obtain ⟨n, hn⟩ := t
  obtain rfl : n = 4 * g + k := e
  show mxAt V c (4 * g + k) r = _
  unfold mxAt
  rw [dif_pos hn]

theorem smean_eq_attnOut (q : Fin 4 → Fin 2048 → Fin 1024 → ℝ) (WqT : Fin 1024 → Fin 1024 → ℝ) (bq : Fin 1024 → ℝ)
    (kp vp : Fin 4 → Fin 2048 → Fin 1024 → ℝ) (b : Fin 4) (s : Fin 2048) (j : Fin 1024) :
    Attn.smean (sT q WqT bq kp b s) (vT vp b j) 0 4 = Attn.attnOut (Attn.scores (Attn.qs q WqT bq) kp) vp 0 b s j := by
  unfold Attn.smean Attn.attnOut
  have hD : ∑ t' : Fin 2048, Real.exp (Attn.scores (Attn.qs q WqT bq) kp b s t' - 0)
      = ∑ j' ∈ Finset.range 4, ∑ k' : Fin 512, Real.exp (sT q WqT bq kp b s j' k' - 0) :=
    (Finset.sum_congr rfl fun t _ => by rw [keyN_val]).trans
      (Attn.sum_keys_tiles (fun x => Real.exp (Attn.scores (Attn.qs q WqT bq) kp b s (keyN x) - 0)))
  rw [hD]
  exact ((Finset.sum_congr rfl fun t _ => by rw [keyN_val]).trans
    (Attn.sum_keys_tiles (fun x => (Real.exp (Attn.scores (Attn.qs q WqT bq) kp b s (keyN x) - 0)
      / ∑ j' ∈ Finset.range 4, ∑ k' : Fin 512, Real.exp (sT q WqT bq kp b s j' k' - 0)) * vp b (keyN x) j))).symm

def Holds (c : Dev nD) (q kp vp : Fin 4 → Fin 2048 → Fin 1024 → ℝ) (WqT : Fin 1024 → Fin 1024 → ℝ) (bq : Fin 1024 → ℝ)
    (b qi : Fin 4) (k : ℕ) (p : St2 Ideal) : Prop :=
  (∀ (r : Fin 512) (d : Fin 1024), p.2.1 (ix2 r d) = ((Attn.qs q WqT bq b (rowOf qi r) d : ℝ) : EReal))
  ∧ (∀ r : Fin 512, p.2.2.1 (ix2 r 0) = ((mu V c (4 * b.val + qi.val) r k : ℝ) : EReal))
  ∧ (∀ r : Fin 512, p.2.2.2.1 (ix2 r 0)
      = ((Attn.den (mu V c (4 * b.val + qi.val) r) (sT q WqT bq kp b (rowOf qi r)) k : ℝ) : EReal))
  ∧ (∀ (r : Fin 512) (j : Fin 1024), p.2.2.2.2 (ix2 r j)
      = ((Attn.num (mu V c (4 * b.val + qi.val) r) (sT q WqT bq kp b (rowOf qi r)) (vT vp b j) k : ℝ) : EReal))

section
variable (c : Dev nD) (q kp vp : Fin 4 → Fin 2048 → Fin 1024 → ℝ) (WqT : Fin 1024 → Fin 1024 → ℝ) (bq : Fin 1024 → ℝ)
  (hq : ∀ b s e, (V c main_arg0 : S4x2048x1024.Idx → EReal) (ix3 b s e) = ((q b s e : ℝ) : EReal))
  (hk : ∀ b t d, (V c main_v12 : S4x2048x1024.Idx → EReal) (ix3 b t d) = ((kp b t d : ℝ) : EReal))
  (hv : ∀ b t j, (V c main_v14 : S4x2048x1024.Idx → EReal) (ix3 b t j) = ((vp b t j : ℝ) : EReal))
  (hw : ∀ e d, (V c main_v7 : S1024x1024.Idx → EReal) (ix2 e d) = ((WqT e d : ℝ) : EReal))
  (hb : ∀ d, (V c main_v10 : S1x1024.Idx → EReal) (ix2 (0 : Fin 1) d) = ((bq d : ℝ) : EReal))

include hq hw hb in
theorem qproj_apply (t : Fin cfg2.N) (b qi : Fin 4) (hbt : b.val = t.val / 16) (hqi : qi.val = (t.val / 4) % 4)
    (r : Fin 512) (d : Fin 1024) :
    qproj2 V c t (ix2 r d) = ((Attn.qs q WqT bq b (rowOf qi r) d : ℝ) : EReal) :=
  pay4_apply (xq V c t) (xw V c t) (xb V c t) (fun r e => q b (rowOf qi r) e) WqT bq
    (fun r e => (xq_apply V c t b (rowOf qi r) r e hbt (by show 512 * qi.val + r.val = _; rw [hqi])).trans (hq b _ e))
    (fun e d => (xw_apply V c t e d).trans (hw e d)) (fun d => (xb_apply V c t d).trans (hb d)) r d

include hk hv in
-- One tile step of the kernel is one step of the tiled recurrences for the denominator and the numerator.
theorem holds_step (t : Fin cfg2.N) (b qi : Fin 4) (kv : ℕ) (hkv : kv < 4) (e : t.val = 16 * b.val + 4 * qi.val + kv)
    (p : St2 Ideal) (h : Holds V c q kp vp WqT bq b qi kv p)
    (e2 : (Frame.outsAt2 V c t.val t.isLt).2
      = (p.2.1, step2 p.2.1 (ktile2 V c t) (vtile2 V c t) p.2.2.1 p.2.2.2.1 p.2.2.2.2)) :
    Holds V c q kp vp WqT bq b qi (kv + 1) (Frame.outsAt2 V c t.val t.isLt) := by
  obtain ⟨hkq, hm, hl, hacc⟩ := h
  have hbt : b.val = t.val / 16 := by have := b.isLt; have := qi.isLt; omega
  have hkeyv : ∀ k : Fin 512, (keyN (512 * kv + k.val)).val = 512 * (t.val % 4) + k.val := fun k => by
    show (512 * kv + k.val) % 2048 = _
    have := k.isLt; omega
  have hkb : ∀ (k : Fin 512) (d : Fin 1024), ktile2 V c t (ix3 0 k d) = ((kp b (keyN (512 * kv + k.val)) d : ℝ) : EReal) := fun k d =>
    (ktile_apply V c t (keyN (512 * kv + k.val)) k d (hkeyv k)).trans ((xk_apply V c t b _ d hbt).trans (hk b _ d))
  have hvb : ∀ (k : Fin 512) (j : Fin 1024), vtile2 V c t (ix3 0 k j) = ((vp b (keyN (512 * kv + k.val)) j : ℝ) : EReal) := fun k j =>
    (vtile_apply V c t (keyN (512 * kv + k.val)) k j (hkeyv k)).trans ((xv_apply V c t b _ j hbt).trans (hv b _ j))
  have hm' : ∀ r : Fin 512, k2_pay9 (F := Ideal) p.2.1 (ktile2 V c t) p.2.2.1 (ix2 r 0)
      = ((mu V c (4 * b.val + qi.val) r (kv + 1) : ℝ) : EReal) := fun r => by
    obtain ⟨x, hx⟩ := pay9_real p.2.1 (ktile2 V c t) p.2.2.1 _ _ _ hkq hkb hm r
    rw [mu_succ V c t (4 * b.val + qi.val) kv (by omega) r, e2]
    show _ = (((k2_pay2 (F := Ideal) (k2_pay9 (F := Ideal) p.2.1 (ktile2 V c t) p.2.2.1) (ix2 r 0)).toReal : ℝ) : EReal)
    rw [pay2_apply, hx, EReal.toReal_coe]
  unfold Holds
  rw [e2]
  exact ⟨hkq, fun r => (pay2_apply _ _).trans (hm' r),
    fun r => pay12_apply _ _ _ _ _ _ _ _ _ hkq hkb hm hm' hl r,
    fun r j => acc_apply _ _ _ _ _ _ _ _ _ _ _ hkq hkb hvb hm hm' hacc r j⟩

include hq hk hv hw hb in
-- By induction on the point: a reset point starts from the initial state, any other from what the point before left.
theorem holds_all : ∀ (n : ℕ) (hn : n < cfg2.N) (b qi : Fin 4) (kv : ℕ), kv < 4 → n = 16 * b.val + 4 * qi.val + kv →
    Holds V c q kp vp WqT bq b qi (kv + 1) (Frame.outsAt2 V c n hn) := by
  have hN : cfg2.N = 64 := N_2
  have caseA : ∀ (t : Fin cfg2.N) (b qi : Fin 4), t.val = 16 * b.val + 4 * qi.val + 0 →
      Holds V c q kp vp WqT bq b qi (0 + 1) (Frame.outsAt2 V c t.val t.isLt) := by
    intro t b qi e
    have h0 : t.val % 4 = 0 := by omega
    have h1 : ¬t.val % 4 = 3 := by omega
    obtain ⟨x5, hx5⟩ := pay5_real
    exact holds_step V c q kp vp WqT bq hk hv t b qi 0 (by omega) e
      ((Frame.outsAt2 V c t.val t.isLt).1, qproj2 V c t, k2_pay5 (F := Ideal), k2_pay6 (F := Ideal), k2_pay7 (F := Ideal))
      ⟨qproj_apply V c q WqT bq hq hw hb t b qi (by have := b.isLt; have := qi.isLt; omega)
          (by have := b.isLt; have := qi.isLt; omega),
        fun r => by
          show k2_pay5 (F := Ideal) (ix2 r 0) = (((k2_pay5 (F := Ideal) (ix2 r 0)).toReal : ℝ) : EReal)
          rw [hx5, EReal.toReal_coe],
        fun r => (pay6_apply (ix2 r 0)).trans EReal.coe_zero.symm,
        fun r j => (pay7_apply (ix2 r j)).trans EReal.coe_zero.symm⟩
      ((congrArg Prod.snd (Frame.outsAt2_A V c t h0 h1)).trans (Frame.stA_2 V c t h0 h1))
  intro n
  induction n with
  | zero =>
    intro hn b qi kv hkv e
    obtain rfl : kv = 0 := by omega
    exact caseA ⟨0, hn⟩ b qi e
  | succ n ih =>
    intro hn b qi kv hkv e
    by_cases hk0 : kv = 0
    · subst hk0
      exact caseA ⟨n + 1, hn⟩ b qi e
    · have h := ih (Nat.lt_of_succ_lt hn) b qi (kv - 1) (by omega) (by omega)
      rw [show kv - 1 + 1 = kv by omega] at h
      have h0 : ¬(n + 1) % 4 = 0 := by omega
      refine holds_step V c q kp vp WqT bq hk hv ⟨n + 1, hn⟩ b qi kv hkv e _ h ?_
      by_cases hk3 : kv = 3
      · exact (congrArg Prod.snd (Frame.outsAt2_C V c ⟨n + 1, hn⟩ h0 (by show (n + 1) % 4 = 3; omega))).trans
          (Frame.stC_2 V c _ _ _ _)
      · exact (congrArg Prod.snd (Frame.outsAt2_B V c ⟨n + 1, hn⟩ h0 (by show ¬(n + 1) % 4 = 3; omega))).trans
          (Frame.stB_2 V c _ _ _ _)

include hq hk hv hw hb in
theorem outBlock_apply (t : Fin cfg2.N) (h3 : t.val % 4 = 3) (b : Fin 4) (row : Fin 2048) (r : Fin 512) (j : Fin 1024)
    (hbt : b.val = t.val / 16) (hrow : row.val = 512 * ((t.val / 4) % 4) + r.val) :
    ((Frame.outsAt2 V c t.val t.isLt).1 : S1x512x1024.Idx → EReal) (ix3 (0 : Fin 1) r j)
      = ((Attn.attnOut (Attn.scores (Attn.qs q WqT bq) kp) vp 0 b row j : ℝ) : EReal) := by
  have hN : cfg2.N = 64 := N_2
  have htl := t.isLt
  have h0 : ¬t.val % 4 = 0 := by omega
  let qi : Fin 4 := ⟨(t.val / 4) % 4, Nat.mod_lt _ (by decide)⟩
  obtain rfl : row = rowOf qi r := Fin.ext hrow
  obtain ⟨-, -, i3, i4⟩ := holds_all V c q kp vp WqT bq hq hk hv hw hb t.val t.isLt b qi 3 (by omega)
    (by show t.val = 16 * b.val + 4 * ((t.val / 4) % 4) + 3; omega)
  rw [Frame.outsAt2_C V c t h0 h3] at i3 i4 ⊢
  rw [Frame.stC_o]
  refine (pay3_apply _ _ _ _ i4 i3 r j ?_).trans ?_
  · exact ne_of_gt (Attn.den_pos _ _ (by decide))
  · rw [Attn.online_eq_smean _ _ _ 0 (by decide : 0 < 3 + 1), smean_eq_attnOut]

end

end Cert.KernelIdeal.Value2

end
-- ==== Proof.KI.R2Value.lean ====
import proofs.«430256_j43482248905221_3_alg».proof.Proof.KI.R2
import proofs.«430256_j43482248905221_3_alg».proof.Proof.KI.R2Blocks
import proofs.«430256_j43482248905221_3_alg».proof.Proof.KI.R2Inv
import proofs.«430256_j43482248905221_3_alg».proof.Proof.AttnSpec
import Idealize.ShloMosaic.Lib.ValueIdx
import Idealize.ShloMosaic.Lib.Pipeline.Value

set_option maxRecDepth 16384

noncomputable section

namespace Cert.KernelIdeal.Value2

open Cert.KernelIdeal Cert.KernelIdeal.Gen
open Idealize.ShloMosaic Idealize.ShloMosaic.TcCoe Idealize.SL.Sem
open Idealize.ShloMosaic.Pipeline (Dat)
open Idealize.ShloMosaic.ValueIdx
open scoped BigOperators

variable (V : (c : Dev nD) → (b : Ref sig .tc) → Buf (Elt Ideal) ((c : Thread nD τ).loc b))

def G5 (q kp vp : Fin 4 → Fin 2048 → Fin 1024 → ℝ) (WqT : Fin 1024 → Fin 1024 → ℝ) (bq : Fin 1024 → ℝ) : S4x2048x1024.Idx → EReal :=
  fun i => ((Attn.attnOut (Attn.scores (Attn.qs q WqT bq) kp) vp 0 (i 0 : Fin 4) (i 1 : Fin 2048) (i 2 : Fin 1024) : ℝ) : EReal)

theorem G5_apply (q kp vp : Fin 4 → Fin 2048 → Fin 1024 → ℝ) (WqT : Fin 1024 → Fin 1024 → ℝ) (bq : Fin 1024 → ℝ)
    (b : Fin 4) (s : Fin 2048) (j : Fin 1024) :
    G5 q kp vp WqT bq (ix3 b s j) = ((Attn.attnOut (Attn.scores (Attn.qs q WqT bq) kp) vp 0 b s j : ℝ) : EReal) := rfl

variable (c : Dev nD) (q kp vp : Fin 4 → Fin 2048 → Fin 1024 → ℝ) (WqT : Fin 1024 → Fin 1024 → ℝ) (bq : Fin 1024 → ℝ)
    (hq : ∀ b s e, (V c main_arg0 : S4x2048x1024.Idx → EReal) (ix3 b s e) = ((q b s e : ℝ) : EReal))
    (hk : ∀ b t d, (V c main_v12 : S4x2048x1024.Idx → EReal) (ix3 b t d) = ((kp b t d : ℝ) : EReal))
    (hv : ∀ b t j, (V c main_v14 : S4x2048x1024.Idx → EReal) (ix3 b t j) = ((vp b t j : ℝ) : EReal))
    (hw : ∀ e d, (V c main_v7 : S1024x1024.Idx → EReal) (ix2 e d) = ((WqT e d : ℝ) : EReal))
    (hb : ∀ d, (V c main_v10 : S1x1024.Idx → EReal) (ix2 (0 : Fin 1) d) = ((bq d : ℝ) : EReal))

include hq hk hv hw hb in
theorem flushed5_eq
    (t : Fin cfg2.N) (h3 : t.val % 4 = 3) :
    (Frame.dat2 (F := Ideal) V c).flushed 5 t = ((cfg2.win 5).blk t).view.read (Elt Ideal) (G5 q kp vp WqT bq) := by
  show (cfg2.win 5).cut (grid2.coords t) ((Frame.dat2 (F := Ideal) V c).after 5 t) = _
  rw [Frame.after2_5]
  obtain ⟨-, -, -, -, -, -, -, -, -, -, -, -, -, e0, e1, e2, -⟩ := idx2 t
  funext y
  have hy0 : (y 0).val < 1 := (y 0).isLt
  have hy1 : (y 1).val < 512 := (y 1).isLt
  have hy2 : (y 2).val < 1024 := (y 2).isLt
  have hN : cfg2.N = 64 := N_2
  have ht : t.val < 64 := by have := t.isLt; omega

  have hemb : ((cfg2.win 5).blk t).view.emb y
      = ix3 (⟨t.val / 16, by omega⟩ : Fin 4) (⟨512 * ((t.val / 4) % 4) + (y 1).val, by omega⟩ : Fin 2048) (⟨(y 2).val, hy2⟩ : Fin 1024) := by
    funext a
    apply Fin.ext
    match a with
    | ⟨0, _⟩ => show win2_5.index t (0 : Fin 3) * 1 + 1 * (y 0).val = t.val / 16; omega
    | ⟨1, _⟩ => show win2_5.index t (1 : Fin 3) * 512 + 1 * (y 1).val = 512 * ((t.val / 4) % 4) + (y 1).val; omega
    | ⟨2, _⟩ => show win2_5.index t (2 : Fin 3) * 1024 + 1 * (y 2).val = (y 2).val; omega
  have hinj : (cfg2.win 5).xinj (grid2.coords t) y = ix3 (0 : Fin 1) (⟨(y 1).val, hy1⟩ : Fin 512) (⟨(y 2).val, hy2⟩ : Fin 1024) := by
    funext a
    apply Fin.ext
    match a with
    | ⟨0, _⟩ => show (y 0).val = 0; omega
    | ⟨1, _⟩ => rfl
    | ⟨2, _⟩ => rfl
  rw [View.read_apply, hemb, G5_apply]
  show ((Frame.outsAt2 V c t.val t.isLt).1 : S1x512x1024.Idx → EReal) ((cfg2.win 5).xinj (grid2.coords t) y) = _
  rw [hinj]
  exact outBlock_apply V c q kp vp WqT bq hq hk hv hw hb t h3 _ _ _ _ rfl rfl

theorem mem_blk5 (t : Fin cfg2.N) (i : S4x2048x1024.Idx) :
    i ∈ ((cfg2.win 5).blk t).view.set ↔ ∀ a : Fin 3, win2_5.index t a * S1x512x1024.size a ≤ (i a).val ∧ (i a).val < win2_5.index t a * S1x512x1024.size a + S1x512x1024.size a := by
  show i ∈ ((View.whole main_v15).slice (win2_5.rect t)).set ↔ _
  rw [View.set_slice_whole, Rect.mem_set_unit]
  exact Iff.rfl

theorem cover5 (i : S4x2048x1024.Idx) :
    ∃ t : Fin cfg2.N, (cfg2.win 5).flush t = true ∧ i ∈ ((cfg2.win 5).blk t).view.set := by
  have hi0 : (i 0).val < 4 := (i 0).isLt
  have hi1 : (i 1).val < 2048 := (i 1).isLt
  have hi2 : (i 2).val < 1024 := (i 2).isLt
  have hN : cfg2.N = 64 := N_2
  have hlt : 16 * (i 0).val + 4 * ((i 1).val / 512) + 3 < cfg2.N := by rw [hN]; omega
  refine ⟨⟨16 * (i 0).val + 4 * ((i 1).val / 512) + 3, hlt⟩, (flush2_5 _).mpr (by show (16 * (i 0).val + 4 * ((i 1).val / 512) + 3) % 4 = 3; omega), ?_⟩
  obtain ⟨-, -, -, -, -, -, -, -, -, -, -, -, -, e0, e1, e2, -⟩ := idx2 ⟨16 * (i 0).val + 4 * ((i 1).val / 512) + 3, hlt⟩
  rw [mem_blk5]
  intro a
  match a with
  | ⟨0, _⟩ =>
    show win2_5.index _ (0 : Fin 3) * 1 ≤ (i 0).val ∧ (i 0).val < win2_5.index _ (0 : Fin 3) * 1 + 1
    rw [e0]
    show (16 * (i 0).val + 4 * ((i 1).val / 512) + 3) / 16 * 1 ≤ (i 0).val ∧ (i 0).val < (16 * (i 0).val + 4 * ((i 1).val / 512) + 3) / 16 * 1 + 1
    omega
  | ⟨1, _⟩ =>
    show win2_5.index _ (1 : Fin 3) * 512 ≤ (i 1).val ∧ (i 1).val < win2_5.index _ (1 : Fin 3) * 512 + 512
    rw [e1]
    show (16 * (i 0).val + 4 * ((i 1).val / 512) + 3) / 4 % 4 * 512 ≤ (i 1).val ∧ (i 1).val < (16 * (i 0).val + 4 * ((i 1).val / 512) + 3) / 4 % 4 * 512 + 512
    omega
  | ⟨2, _⟩ =>
    show win2_5.index _ (2 : Fin 3) * 1024 ≤ (i 2).val ∧ (i 2).val < win2_5.index _ (2 : Fin 3) * 1024 + 1024
    rw [e2]
    omega

include hq hk hv hw hb in
theorem final2
    (b : Fin 4) (s : Fin 2048) (j : Fin 1024) :
    ((Frame.dat2 (F := Ideal) V c).arrAt 5 cfg2.N : S4x2048x1024.Idx → EReal) (ix3 b s j)
      = ((Attn.attnOut (Attn.scores (Attn.qs q WqT bq) kp) vp 0 b s j : ℝ) : EReal) := by
  have h := (Frame.dat2 (F := Ideal) V c).arrAt_eq_of_cover 5 (G5 q kp vp WqT bq)
    (fun t hf => flushed5_eq V c q kp vp WqT bq hq hk hv hw hb t ((flush2_5 t).mp hf)) cover5
  exact (congrFun h (ix3 b s j)).trans (G5_apply q kp vp WqT bq b s j)

end Cert.KernelIdeal.Value2

end
-- ==== Proof.KI.Final.lean ====
import proofs.«430256_j43482248905221_3_alg».proof.Proof.KI.Launch
import proofs.«430256_j43482248905221_3_alg».proof.Proof.KI.HostOps
import proofs.«430256_j43482248905221_3_alg».proof.Proof.KI.R0Value
import proofs.«430256_j43482248905221_3_alg».proof.Proof.KI.R1Value
import proofs.«430256_j43482248905221_3_alg».proof.Proof.KI.R2Value
import proofs.«430256_j43482248905221_3_alg».proof.Proof.AttnSpec
import proofs.«430256_j43482248905221_3_alg».proof.Proof.ERealSum

noncomputable section

namespace Cert.KernelIdeal.Final

open Cert.KernelIdeal Cert.KernelIdeal.Gen Cert.KernelIdeal.Frame
open Idealize.ShloMosaic Idealize.ShloMosaic.TcCoe Idealize.ShloMosaic.ValueIdx Idealize.SL.Sem

variable (m : (ℓ : Loc nD τ sig) → Buf (Elt Ideal) ℓ) (ρ : Dev nD → PrngReg) (c : Dev nD)
variable (q k v : Fin 4 → Fin 2048 → Fin 1024 → ℝ) (Wq Wk Wv : Fin 1024 → Fin 1024 → ℝ) (bq bk bv : Fin 1024 → ℝ)

theorem kept0 (r : Ref sig .tc) (h0 : r ∉ hostOps0_W) (h1 : r ∉ hostOps1_W) (h2 : r ∉ hostOps2_W)
    (n0 : ∀ w, Pipeline.arrRef spec0 w ≠ r) (n1 : ∀ w, Pipeline.arrRef spec1 w ≠ r) :
    W5 (F := Ideal) m ρ c (Proc.devRef .tc r) = W0 m ρ c (Proc.devRef .tc r) :=
  (W5_of m ρ c r h2).trans <| (W4_of_ne m ρ c r n1).trans <| (W3_of m ρ c r h1).trans <| (W2_of_ne m ρ c r n0).trans (W1_of m ρ c r h0)

theorem kept1 (r : Ref sig .tc) (h1 : r ∉ hostOps1_W) (h2 : r ∉ hostOps2_W)
    (n0 : ∀ w, Pipeline.arrRef spec0 w ≠ r) (n1 : ∀ w, Pipeline.arrRef spec1 w ≠ r) :
    W5 (F := Ideal) m ρ c (Proc.devRef .tc r) = W1 m ρ c (Proc.devRef .tc r) :=
  (W5_of m ρ c r h2).trans <| (W4_of_ne m ρ c r n1).trans <| (W3_of m ρ c r h1).trans (W2_of_ne m ρ c r n0)

variable (h0 : ∀ b s d, (m ((c.tc : Thread nD τ).loc main_arg0) : S4x2048x1024.Idx → EReal) (ix3 b s d) = ((q b s d : ℝ) : EReal))
  (h1 : ∀ b s d, (m ((c.tc : Thread nD τ).loc main_arg1) : S4x2048x1024.Idx → EReal) (ix3 b s d) = ((k b s d : ℝ) : EReal))
  (h2 : ∀ b s d, (m ((c.tc : Thread nD τ).loc main_arg2) : S4x2048x1024.Idx → EReal) (ix3 b s d) = ((v b s d : ℝ) : EReal))
  (h3 : ∀ j d, (m ((c.tc : Thread nD τ).loc main_arg3) : S1024x1024.Idx → EReal) (ix2 j d) = ((Wq j d : ℝ) : EReal))
  (h4 : ∀ j, (m ((c.tc : Thread nD τ).loc main_arg4) : S1024.Idx → EReal) (ix1 j) = ((bq j : ℝ) : EReal))
  (h5 : ∀ j d, (m ((c.tc : Thread nD τ).loc main_arg5) : S1024x1024.Idx → EReal) (ix2 j d) = ((Wk j d : ℝ) : EReal))
  (h6 : ∀ j, (m ((c.tc : Thread nD τ).loc main_arg6) : S1024.Idx → EReal) (ix1 j) = ((bk j : ℝ) : EReal))
  (h7 : ∀ j d, (m ((c.tc : Thread nD τ).loc main_arg7) : S1024x1024.Idx → EReal) (ix2 j d) = ((Wv j d : ℝ) : EReal))
  (h8 : ∀ j, (m ((c.tc : Thread nD τ).loc main_arg8) : S1024.Idx → EReal) (ix1 j) = ((bv j : ℝ) : EReal))

include h0 in
theorem q_eq
    (b : Fin 4) (s : Fin 2048) (d : Fin 1024) :
    (V5 (F := Ideal) m ρ c main_arg0 : S4x2048x1024.Idx → EReal) (ix3 b s d) = ((q b s d : ℝ) : EReal) := by
  have e : V5 (F := Ideal) m ρ c main_arg0 = W0 m ρ c (Proc.devRef .tc main_arg0) :=
    kept0 m ρ c main_arg0 (by decide) (by decide) (by decide) (by decide) (by decide)
  rw [e]; exact h0 b s d

include h1 h5 h6 in
theorem kp_eq
    (b : Fin 4) (t : Fin 2048) (d : Fin 1024) :
    (V5 (F := Ideal) m ρ c main_v12 : S4x2048x1024.Idx → EReal) (ix3 b t d) = ((Attn.lin k Wk bk b t d : ℝ) : EReal) := by
  have e1 : V5 (F := Ideal) m ρ c main_v12 = W3 m ρ c (Proc.devRef .tc main_v12) :=
    (W5_of m ρ c main_v12 (by decide)).trans (W4_of_ne m ρ c main_v12 (by decide))
  rw [e1]
  show (StableHlo.after hostOps1 (W2 (F := Ideal) m ρ c) (Proc.devRef .tc main_v12) : S4x2048x1024.Idx → EReal) (ix3 b t d) = _
  rw [HostOps.v12_apply (W2 (F := Ideal) m ρ c) b t d, W2_main_v11 m ρ c,
    Value0.arr0_3_apply (V1 (F := Ideal) m ρ) c (HostOps.flatRow b t) d, Value0.G0_apply]
  have hx : ∀ e : Fin 1024, (V1 (F := Ideal) m ρ c main_v0 : S8192x1024.Idx → EReal) (ix2 (HostOps.flatRow b t) e) = ((k b t e : ℝ) : EReal) :=
    fun e => (HostOps.v0_apply' (W0 (F := Ideal) m ρ c) b t e).trans (h1 b t e)
  have hw : ∀ e : Fin 1024, (V1 (F := Ideal) m ρ c main_v3 : S1024x1024.Idx → EReal) (ix2 e d) = ((Wk d e : ℝ) : EReal) :=
    fun e => (HostOps.v3_apply (W0 (F := Ideal) m ρ c) e d).trans (h5 d e)
  have hb : (V1 (F := Ideal) m ρ c main_v8 : S1x1024.Idx → EReal) (ix2 (0 : Fin 1) d) = ((bk d : ℝ) : EReal) :=
    (HostOps.v8_apply (W0 (F := Ideal) m ρ c) d).trans (h6 d)
  rw [hb, Finset.sum_congr rfl (fun e _ => by rw [hx e, hw e, ← EReal.coe_mul]), Attn.coe_sum, ← EReal.coe_add]
  rfl

include h2 h7 h8 in
theorem vp_eq
    (b : Fin 4) (t : Fin 2048) (j : Fin 1024) :
    (V5 (F := Ideal) m ρ c main_v14 : S4x2048x1024.Idx → EReal) (ix3 b t j) = ((Attn.lin v Wv bv b t j : ℝ) : EReal) := by
  show (StableHlo.after hostOps2 (W4 (F := Ideal) m ρ c) (Proc.devRef .tc main_v14) : S4x2048x1024.Idx → EReal) (ix3 b t j) = _
  rw [HostOps.v14_apply (W4 (F := Ideal) m ρ c) b t j, W4_main_v13 m ρ c,
    Value1.arr1_3_apply (V3 (F := Ideal) m ρ) c (HostOps.flatRow b t) j, Value1.G1_apply]
  have e1 : V3 (F := Ideal) m ρ c main_v1 = V1 m ρ c main_v1 := (W3_of m ρ c main_v1 (by decide)).trans (W2_of_ne m ρ c main_v1 (by decide))
  have e5 : V3 (F := Ideal) m ρ c main_v5 = V1 m ρ c main_v5 := (W3_of m ρ c main_v5 (by decide)).trans (W2_of_ne m ρ c main_v5 (by decide))
  have e9 : V3 (F := Ideal) m ρ c main_v9 = V1 m ρ c main_v9 := (W3_of m ρ c main_v9 (by decide)).trans (W2_of_ne m ρ c main_v9 (by decide))
  rw [e1, e5, e9]
  have hx : ∀ e : Fin 1024, (V1 (F := Ideal) m ρ c main_v1 : S8192x1024.Idx → EReal) (ix2 (HostOps.flatRow b t) e) = ((v b t e : ℝ) : EReal) :=
    fun e => (HostOps.v1_apply' (W0 (F := Ideal) m ρ c) b t e).trans (h2 b t e)
  have hw : ∀ e : Fin 1024, (V1 (F := Ideal) m ρ c main_v5 : S1024x1024.Idx → EReal) (ix2 e j) = ((Wv j e : ℝ) : EReal) :=
    fun e => (HostOps.v5_apply (W0 (F := Ideal) m ρ c) e j).trans (h7 j e)
  have hb : (V1 (F := Ideal) m ρ c main_v9 : S1x1024.Idx → EReal) (ix2 (0 : Fin 1) j) = ((bv j : ℝ) : EReal) :=
    (HostOps.v9_apply (W0 (F := Ideal) m ρ c) j).trans (h8 j)
  rw [hb, Finset.sum_congr rfl (fun e _ => by rw [hx e, hw e, ← EReal.coe_mul]), Attn.coe_sum, ← EReal.coe_add]
  rfl

include h3 in
theorem wq_eq (e d : Fin 1024) :
    (V5 (F := Ideal) m ρ c main_v7 : S1024x1024.Idx → EReal) (ix2 e d) = ((Wq d e : ℝ) : EReal) := by
  have e1 : V5 (F := Ideal) m ρ c main_v7 = W1 m ρ c (Proc.devRef .tc main_v7) :=
    kept1 m ρ c main_v7 (by decide) (by decide) (by decide) (by decide)
  rw [e1]
  exact (HostOps.v7_apply (W0 (F := Ideal) m ρ c) e d).trans (h3 d e)

include h4 in
theorem bq_eq (d : Fin 1024) :
    (V5 (F := Ideal) m ρ c main_v10 : S1x1024.Idx → EReal) (ix2 (0 : Fin 1) d) = ((bq d : ℝ) : EReal) := by
  have e1 : V5 (F := Ideal) m ρ c main_v10 = W1 m ρ c (Proc.devRef .tc main_v10) :=
    kept1 m ρ c main_v10 (by decide) (by decide) (by decide) (by decide)
  rw [e1]
  exact (HostOps.v10_apply (W0 (F := Ideal) m ρ c) d).trans (h4 d)

include h0 h1 h2 h3 h4 h5 h6 h7 h8 in
theorem result_eq

    (b : Fin 4) (s : Fin 2048) (j : Fin 1024) :
    (W6 (F := Ideal) m ρ c (Proc.devRef .tc main_v15) : S4x2048x1024.Idx → EReal) (ix3 b s j)
      = ((Attn.attnRef q k v Wq Wk Wv bq bk bv b s j : ℝ) : EReal) := by
  rw [W6_main_v15 m ρ c,
    Value2.final2 (V5 (F := Ideal) m ρ) c q (Attn.lin k Wk bk) (Attn.lin v Wv bv) (fun e d => Wq d e) bq
      (q_eq m ρ c q h0) (kp_eq m ρ c k Wk bk h1 h5 h6) (vp_eq m ρ c v Wv bv h2 h7 h8) (wq_eq m ρ c Wq h3) (bq_eq m ρ c bq h4) b s j]
  unfold Attn.attnRef
  rw [Attn.scores_qs q Wq (fun e d => Wq d e) bq (Attn.lin k Wk bk) (fun _ _ => rfl)]

end Cert.KernelIdeal.Final

end
-- ==== Proof.RefValue.lean ====
import proofs.«430256_j43482248905221_3_alg».proof.Proof.Gen.ReferenceIdeal.Read
import proofs.«430256_j43482248905221_3_alg».proof.Proof.AttnSpec
import proofs.«430256_j43482248905221_3_alg».proof.Proof.ERealSum

noncomputable section

namespace Cert.ReferenceIdeal.RefValue

open Cert.ReferenceIdeal Cert.ReferenceIdeal.Gen Cert.ReferenceIdeal.Read Idealize.ShloMosaic Idealize.ShloMosaic.TcCoe
  Idealize.SL.Sem Idealize.ShloMosaic.StableHlo Idealize.ShloMosaic.ValueIdx

abbrev A3 : Type := (⟨S4x2048x1024, .f32⟩ : BufTy).Contents (Elt Ideal)
abbrev A2 : Type := (⟨S1024x1024, .f32⟩ : BufTy).Contents (Elt Ideal)
abbrev A1 : Type := (⟨S1024, .f32⟩ : BufTy).Contents (Elt Ideal)

theorem ofBits_32 : Ideal.ofBits .f32 0x42000000#32 = ((32 : ℝ) : EReal) := by
  simp [Ideal.ofBits, Ideal.ieee, -EReal.coe_mul]; norm_num

theorem ofBits_negInf : Ideal.ofBits .f32 0xFF800000#32 = (⊥ : EReal) := by
  simp [Ideal.ofBits, Ideal.ieee]

theorem coe_max (x y : ℝ) : max (x : EReal) (y : EReal) = ((max x y : ℝ) : EReal) :=
  (EReal.coe_strictMono.monotone.map_max).symm

theorem fold_max_real {ι : Type} (op : EReal → EReal → EReal) [Std.Commutative op] [Std.Associative op]
    (hop : ∀ x y, op x y = max x y) (s : Finset ι) (f : ι → EReal) (g : ι → ℝ)
    (hf : ∀ k, f k = ((g k : ℝ) : EReal)) :
    (s = ∅ ∧ s.fold op (⊥ : EReal) f = ⊥) ∨ ∃ M : ℝ, s.fold op (⊥ : EReal) f = ((M : ℝ) : EReal) := by
  classical
  induction s using Finset.induction_on with
  | empty => exact Or.inl ⟨rfl, Finset.fold_empty⟩
  | insert a s ha ih =>
    refine Or.inr ?_
    rw [Finset.fold_insert ha, hop, hf a]
    rcases ih with ⟨_, h⟩ | ⟨M, h⟩
    · exact ⟨g a, by rw [h, max_bot_right]⟩
    · exact ⟨max (g a) M, by rw [h, coe_max]⟩

theorem lin_v3 (x0 : A3) (x3 : A2) (x4 : A1) (q : Fin 4 → Fin 2048 → Fin 1024 → ℝ) (W : Fin 1024 → Fin 1024 → ℝ)
    (bias : Fin 1024 → ℝ) (h0 : ∀ b s d, x0 (ix3 b s d) = ((q b s d : ℝ) : EReal))
    (h3 : ∀ j d, x3 (ix2 j d) = ((W j d : ℝ) : EReal)) (h4 : ∀ j, x4 (ix1 j) = ((bias j : ℝ) : EReal))
    (b : Fin 4) (s : Fin 2048) (j : Fin 1024) :
    val_main_v3 (F := Ideal) x0 x3 x4 (ix3 b s j) = ((Attn.lin q W bias b s j : ℝ) : EReal) := by
  rw [val_main_v3_apply, val_main_v0_apply, val_main_v2_apply, val_main_v1_apply]
  have el : ∀ k : Fin 1024, lidx_main_v0 (ix3 b s j) k = ix3 b s k := fun k => (eq_ix3 _).trans rfl
  have er : ∀ k : Fin 1024, ridx_main_v0 (ix3 b s j) k = ix2 j k := fun k => (eq_ix2 _).trans rfl
  have eb : idx_main_v1 (idx_main_v2 (ix3 b s j)) = ix1 j := (eq_ix1 _).trans rfl
  simp only [el, er, eb, h0, h3, h4, Ideal.addf_def]
  simp only [← EReal.coe_mul]
  rw [Attn.coe_sum, ← EReal.coe_add]
  rfl

section Scores

variable (x0 x1 : A3) (x3 : A2) (x4 : A1) (x5 : A2) (x6 : A1)

theorem scores_v14 (qp kp : Fin 4 → Fin 2048 → Fin 1024 → ℝ)
    (hq : ∀ b s j, val_main_v3 (F := Ideal) x0 x3 x4 (ix3 b s j) = ((qp b s j : ℝ) : EReal))
    (hk : ∀ b s j, val_main_v7 (F := Ideal) x1 x5 x6 (ix3 b s j) = ((kp b s j : ℝ) : EReal))
    (b : Fin 4) (s t : Fin 2048) :
    val_main_v14 (F := Ideal) x0 x1 x3 x4 x5 x6 (ix3 b s t) = ((Attn.scoresRef qp kp b s t : ℝ) : EReal) := by
  rw [val_main_v14_apply, val_main_v12_apply, val_main_v13_apply, val_main_cst_apply]
  have el : ∀ k : Fin 1024, lidx_main_v12 (ix3 b s t) k = ix3 b s k := fun k => (eq_ix3 _).trans rfl
  have er : ∀ k : Fin 1024, ridx_main_v12 (ix3 b s t) k = ix3 b t k := fun k => (eq_ix3 _).trans rfl
  simp only [el, er, hq, hk, Ideal.hostDivf_def, Ideal.ofBits_def, ofBits_32]
  simp only [← EReal.coe_mul]
  rw [Attn.coe_sum, Ideal.div_coe (by norm_num : (32 : ℝ) ≠ 0), ← EReal.coe_mul]
  congr 1
  unfold Attn.scoresRef
  ring

theorem rowmax_v17 (sc : Fin 4 → Fin 2048 → Fin 2048 → ℝ)
    (hsc : ∀ b s t, val_main_v14 (F := Ideal) x0 x1 x3 x4 x5 x6 (ix3 b s t) = ((sc b s t : ℝ) : EReal))
    (b : Fin 4) (s : Fin 2048) :
    ∃ M : ℝ, val_main_v17 (F := Ideal) x0 x1 x3 x4 x5 x6 (ix2 b s) = ((M : ℝ) : EReal) := by
  have h : S4x2048x2048.Reduces [2] S4x2048 := by decide
  rw [val_main_v17_apply, val_main_v16_apply, val_main_cst_1_apply]
  unfold val_main_v15
  rw [Host.reduce_eq_fold_single FloatOps.maximumf _ _ reducesTo_S4x2048x2048_S4x2048_d2 h h_S_]
  have hl : ∀ k : Fin (S4x2048x2048.size 2), h.lift (ix2 b s) k = ix3 b s (⟨k.val, k.isLt⟩ : Fin 2048) := fun k => by
    funext c; apply Fin.ext; fin_cases c <;> rfl
  have hinit : val_main_cst_0 (F := Ideal) (Shape.Idx.first h_S_) = (⊥ : EReal) := by
    rw [val_main_cst_0_apply, Ideal.ofBits_def, ofBits_negInf]
  rw [hinit]
  haveI : Nonempty (Fin (S4x2048x2048.size 2)) := ⟨⟨0, by decide⟩⟩
  rcases fold_max_real (FloatOps.maximumf (F := Ideal) (φ := .f32)) (fun _ _ => rfl) Finset.univ
      (val_main_v14 (F := Ideal) x0 x1 x3 x4 x5 x6 ∘ h.lift (ix2 b s)) (fun k => sc b s ⟨k.val, k.isLt⟩)
      (fun k => by rw [Function.comp_apply, hl k]; exact hsc b s _) with ⟨he, _⟩ | ⟨M, hM⟩
  · exact absurd he Finset.univ_nonempty.ne_empty
  · exact ⟨M, by rw [hM, Ideal.maximumf_def, Ideal.ofBits_def, ofBits_negInf, max_bot_left]⟩

theorem exp_v21 (sc : Fin 4 → Fin 2048 → Fin 2048 → ℝ)
    (hsc : ∀ b s t, val_main_v14 (F := Ideal) x0 x1 x3 x4 x5 x6 (ix3 b s t) = ((sc b s t : ℝ) : EReal))
    (b : Fin 4) (s : Fin 2048) (M : ℝ)
    (hM : val_main_v17 (F := Ideal) x0 x1 x3 x4 x5 x6 (ix2 b s) = ((M : ℝ) : EReal)) (t : Fin 2048) :
    val_main_v21 (F := Ideal) x0 x1 x3 x4 x5 x6 (ix3 b s t) = ((Real.exp (sc b s t - M) : ℝ) : EReal) := by
  rw [val_main_v21_apply, val_main_v20_apply, val_main_v19_apply, val_main_v18_apply]
  have e : idx_main_v18 (idx_main_v19 (ix3 b s t)) = ix2 b s := (eq_ix2 _).trans rfl
  rw [e, hM, hsc, Ideal.hostUnary_exp_def, Ideal.subf_def, ← EReal.coe_sub, Ideal.exp_coe]

theorem den_v22 (sc : Fin 4 → Fin 2048 → Fin 2048 → ℝ)
    (hsc : ∀ b s t, val_main_v14 (F := Ideal) x0 x1 x3 x4 x5 x6 (ix3 b s t) = ((sc b s t : ℝ) : EReal))
    (b : Fin 4) (s : Fin 2048) (M : ℝ)
    (hM : val_main_v17 (F := Ideal) x0 x1 x3 x4 x5 x6 (ix2 b s) = ((M : ℝ) : EReal)) :
    val_main_v22 (F := Ideal) x0 x1 x3 x4 x5 x6 (ix2 b s) = ((∑ t, Real.exp (sc b s t - M) : ℝ) : EReal) := by
  rw [val_main_v22_apply, val_main_cst_2_apply]
  have e : ∀ k : Fin 2048, idx_main_v22 (ix2 b s) k = ix3 b s k := fun k => (eq_ix3 _).trans rfl
  simp only [e, exp_v21 x0 x1 x3 x4 x5 x6 sc hsc b s M hM, Ideal.ofBits_def, Ideal.ofBits_zero_f32]
  rw [Attn.coe_sum, zero_add]

theorem weight_v25 (sc : Fin 4 → Fin 2048 → Fin 2048 → ℝ)
    (hsc : ∀ b s t, val_main_v14 (F := Ideal) x0 x1 x3 x4 x5 x6 (ix3 b s t) = ((sc b s t : ℝ) : EReal))
    (b : Fin 4) (s : Fin 2048) (M : ℝ)
    (hM : val_main_v17 (F := Ideal) x0 x1 x3 x4 x5 x6 (ix2 b s) = ((M : ℝ) : EReal)) (t : Fin 2048) :
    val_main_v25 (F := Ideal) x0 x1 x3 x4 x5 x6 (ix3 b s t)
      = ((Real.exp (sc b s t - M) / ∑ t', Real.exp (sc b s t' - M) : ℝ) : EReal) := by
  rw [val_main_v25_apply, val_main_v24_apply, val_main_v23_apply]
  have e : idx_main_v23 (idx_main_v24 (ix3 b s t)) = ix2 b s := (eq_ix2 _).trans rfl
  have hpos : (0 : ℝ) < ∑ t', Real.exp (sc b s t' - M) :=
    Finset.sum_pos (fun t' _ => Real.exp_pos _) Finset.univ_nonempty
  rw [e, exp_v21 x0 x1 x3 x4 x5 x6 sc hsc b s M hM, den_v22 x0 x1 x3 x4 x5 x6 sc hsc b s M hM, Ideal.hostDivf_def,
    Ideal.div_coe (ne_of_gt hpos), ← EReal.coe_mul, mul_one_div]

end Scores

theorem ref_eq (q k v : Fin 4 → Fin 2048 → Fin 1024 → ℝ) (Wq Wk Wv : Fin 1024 → Fin 1024 → ℝ) (bq bk bv : Fin 1024 → ℝ)
    (x0 x1 x2 : A3) (x3 : A2) (x4 : A1) (x5 : A2) (x6 : A1) (x7 : A2) (x8 : A1)
    (h0 : ∀ b s d, x0 (ix3 b s d) = ((q b s d : ℝ) : EReal))
    (h1 : ∀ b s d, x1 (ix3 b s d) = ((k b s d : ℝ) : EReal))
    (h2 : ∀ b s d, x2 (ix3 b s d) = ((v b s d : ℝ) : EReal))
    (h3 : ∀ j d, x3 (ix2 j d) = ((Wq j d : ℝ) : EReal)) (h4 : ∀ j, x4 (ix1 j) = ((bq j : ℝ) : EReal))
    (h5 : ∀ j d, x5 (ix2 j d) = ((Wk j d : ℝ) : EReal)) (h6 : ∀ j, x6 (ix1 j) = ((bk j : ℝ) : EReal))
    (h7 : ∀ j d, x7 (ix2 j d) = ((Wv j d : ℝ) : EReal)) (h8 : ∀ j, x8 (ix1 j) = ((bv j : ℝ) : EReal))
    (b : Fin 4) (s : Fin 2048) (c : Fin 1024) :
    val_main_v26 (F := Ideal) x0 x1 x2 x3 x4 x5 x6 x7 x8 (ix3 b s c)
      = ((Attn.attnRef q k v Wq Wk Wv bq bk bv b s c : ℝ) : EReal) := by
  have hsc := scores_v14 x0 x1 x3 x4 x5 x6 (Attn.lin q Wq bq) (Attn.lin k Wk bk)
    (lin_v3 x0 x3 x4 q Wq bq h0 h3 h4) (lin_v3 x1 x5 x6 k Wk bk h1 h5 h6)
  obtain ⟨M, hM⟩ := rowmax_v17 x0 x1 x3 x4 x5 x6 _ hsc b s
  have hvp : ∀ b s j, val_main_v11 (F := Ideal) x2 x7 x8 (ix3 b s j) = ((Attn.lin v Wv bv b s j : ℝ) : EReal) :=
    lin_v3 x2 x7 x8 v Wv bv h2 h7 h8
  rw [val_main_v26_apply]
  have el : ∀ t : Fin 2048, lidx_main_v26 (ix3 b s c) t = ix3 b s t := fun t => (eq_ix3 _).trans rfl
  have er : ∀ t : Fin 2048, ridx_main_v26 (ix3 b s c) t = ix3 b t c := fun t => (eq_ix3 _).trans rfl
  simp only [el, er, weight_v25 x0 x1 x3 x4 x5 x6 _ hsc b s M hM, hvp]
  simp only [← EReal.coe_mul]
  rw [Attn.coe_sum]
  unfold Attn.attnRef
  rw [Attn.attnOut_shift _ _ 0 M]
  rfl

end Cert.ReferenceIdeal.RefValue

end
-- ==== Proof.Finite.lean ====
import proofs.«430256_j43482248905221_3_alg».proof.Pre_finite_inputs
import Idealize.ShloMosaic.PureOps.Ideal
import Idealize.ShloMosaic.Lib.ReduceAll
import Idealize.ShloMosaic.Lib.ValueIdx

noncomputable section

namespace Cert.Finite

open Idealize.ShloMosaic Cert.Pre_finite_inputs

variable [Cert.Pre_finite_inputs.Facts]

instance : Subsingleton S_.Idx := ⟨fun a b => funext fun d => d.elim0⟩

theorem top_pat : Ideal.ofBits .f32 0x7F800000#32 = (⊤ : EReal) := by
  simp [Ideal.ofBits, Ideal.ieee]

theorem real_of_abs_lt (x : EReal) (h : FloatOps.cmpf (F := Ideal) (φ := .f32) .olt (max x (-x)) (⊤ : EReal) = 1#1) :
    ∃ r : ℝ, x = (r : EReal) := by
  induction x using EReal.rec with
  | bot => exfalso; revert h; simp [FloatOps.cmpf, Ideal.cmp]
  | coe r => exact ⟨r, rfl⟩
  | top => exfalso; revert h; simp [FloatOps.cmpf, Ideal.cmp]

theorem real_of_conj {s : Shape} {axes : List (Fin s.rank)} (a B : FVec Ideal s .f32)
    (hB : ∀ i, B i = Ideal.ofBits .f32 0x7F800000#32) (init : S_.Idx → BitVec 1)
    (hr : s.ReducesTo axes S_) (hu : 0 < S_.numel)
    (e : Host.reduce IntOp.andi (cmpf .olt (Host.absf a) B) init hr hu ValueIdx.ix0 = 1#1) (i : s.Idx) :
    ∃ r : ℝ, a i = (r : EReal) := by
  have h1 := Host.reduce_andi_all _ _ hr hu _ e i
  have h2 : FloatOps.cmpf (F := Ideal) .olt (max (a i) (-(a i))) (B i) = 1#1 := h1
  rw [hB, top_pat] at h2
  exact real_of_abs_lt _ h2

theorem real_of_pre (a0 a1 a2 : FVec Ideal S4x2048x1024 .f32) (a3 : FVec Ideal S1024x1024 .f32) (a4 : FVec Ideal S1024 .f32)
    (a5 : FVec Ideal S1024x1024 .f32) (a6 : FVec Ideal S1024 .f32) (a7 : FVec Ideal S1024x1024 .f32) (a8 : FVec Ideal S1024 .f32)
    (h : Cert.Pre_finite_inputs.fn (F := Ideal) a0 a1 a2 a3 a4 a5 a6 a7 a8 = (fun _ => 1#1)) :
    (∀ i, ∃ r : ℝ, a0 i = (r : EReal)) ∧ (∀ i, ∃ r : ℝ, a1 i = (r : EReal)) ∧ (∀ i, ∃ r : ℝ, a2 i = (r : EReal))
    ∧ (∀ i, ∃ r : ℝ, a3 i = (r : EReal)) ∧ (∀ i, ∃ r : ℝ, a4 i = (r : EReal)) ∧ (∀ i, ∃ r : ℝ, a5 i = (r : EReal))
    ∧ (∀ i, ∃ r : ℝ, a6 i = (r : EReal)) ∧ (∀ i, ∃ r : ℝ, a7 i = (r : EReal)) ∧ (∀ i, ∃ r : ℝ, a8 i = (r : EReal)) := by
  have h0 := congrFun h ValueIdx.ix0
  dsimp only [fn, fn_part1, fn_part2] at h0
  obtain ⟨h0, e8⟩ := IntOp.andi_eq_one.1 h0
  obtain ⟨h0, e7⟩ := IntOp.andi_eq_one.1 h0
  obtain ⟨h0, e6⟩ := IntOp.andi_eq_one.1 h0
  obtain ⟨h0, e5⟩ := IntOp.andi_eq_one.1 h0
  obtain ⟨h0, e4⟩ := IntOp.andi_eq_one.1 h0
  obtain ⟨h0, e3⟩ := IntOp.andi_eq_one.1 h0
  obtain ⟨h0, e2⟩ := IntOp.andi_eq_one.1 h0
  obtain ⟨e0, e1⟩ := IntOp.andi_eq_one.1 h0
  exact ⟨real_of_conj a0 _ (fun _ => rfl) _ _ _ e0, real_of_conj a1 _ (fun _ => rfl) _ _ _ e1, real_of_conj a2 _ (fun _ => rfl) _ _ _ e2,
    real_of_conj a3 _ (fun _ => rfl) _ _ _ e3, real_of_conj a4 _ (fun _ => rfl) _ _ _ e4, real_of_conj a5 _ (fun _ => rfl) _ _ _ e5,
    real_of_conj a6 _ (fun _ => rfl) _ _ _ e6, real_of_conj a7 _ (fun _ => rfl) _ _ _ e7, real_of_conj a8 _ (fun _ => rfl) _ _ _ e8⟩

end Cert.Finite

end
-- ==== Proof.lean ====
import proofs.«430256_j43482248905221_3_alg».proof.Defs
import proofs.«430256_j43482248905221_3_alg».proof.Proof.Gen.Kernel
import proofs.«430256_j43482248905221_3_alg».proof.Proof.Gen.KernelIdeal
import proofs.«430256_j43482248905221_3_alg».proof.Proof.Gen.ReferenceIdeal
import proofs.«430256_j43482248905221_3_alg».proof.Proof.Gen.Pre_finite_inputs
import proofs.«430256_j43482248905221_3_alg».proof.Proof.Gen.ReferenceIdeal.Run
import proofs.«430256_j43482248905221_3_alg».proof.Proof.Gen.ReferenceIdeal.Read
import proofs.«430256_j43482248905221_3_alg».proof.Proof.K.Launch
import proofs.«430256_j43482248905221_3_alg».proof.Proof.KI.Launch
import proofs.«430256_j43482248905221_3_alg».proof.Proof.KI.Final
import proofs.«430256_j43482248905221_3_alg».proof.Proof.RefValue
import proofs.«430256_j43482248905221_3_alg».proof.Proof.Finite

noncomputable section

namespace Cert.Proof

open Idealize.ShloMosaic Idealize.ShloMosaic.TcCoe Idealize.SL.Sem

theorem frame_k : Cert.frame_Kernel := fun m ρ _ => Cert.Kernel.Frame.frame (F := Bits) m ρ

theorem frame_ki : Cert.frame_KernelIdeal := fun m ρ _ => Cert.KernelIdeal.Frame.frame (F := Ideal) m ρ

theorem frame_ri : Cert.frame_ReferenceIdeal := fun m ρ _ =>
  (θ_run Cert.ReferenceIdeal.defs _ _).mono (fun _ h c => (h c).2) (Cert.ReferenceIdeal.Value.run (F := Ideal) m ρ)

theorem algebraic : Cert.algebraic_KernelIdeal_ReferenceIdeal := by
  intro m ρ m' ρ' hpre hagree
  refine ⟨fun c => Cert.KernelIdeal.Frame.W6 (F := Ideal) m ρ c (Proc.devRef .tc Cert.KernelIdeal.main_v15),
    Cert.KernelIdeal.Frame.run_value (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v26_eq, (hagree c).1, (hagree c).2.1, (hagree c).2.2.1, (hagree c).2.2.2.1,
    (hagree c).2.2.2.2.1, (hagree c).2.2.2.2.2.1, (hagree c).2.2.2.2.2.2.1, (hagree c).2.2.2.2.2.2.2.1, (hagree c).2.2.2.2.2.2.2.2]
  obtain ⟨r0, r1, r2, r3, r4, r5, r6, r7, r8⟩ := Cert.Finite.real_of_pre _ _ _ _ _ _ _ _ _ (hpre c)
  choose q hq using r0
  choose k hk using r1
  choose v hv using r2
  choose Wq hWq using r3
  choose bq hbq using r4
  choose Wk hWk using r5
  choose bk hbk using r6
  choose Wv hWv using r7
  choose bv hbv using r8
  funext i
  obtain ⟨b, s, j, rfl⟩ : ∃ (b : Fin 4) (s : Fin 2048) (j : Fin 1024), i = ValueIdx.ix3 b s j := ⟨i 0, i 1, i 2, ValueIdx.eq_ix3 i⟩
  rw [Cert.ReferenceIdeal.RefValue.ref_eq (fun b s d => q (ValueIdx.ix3 b s d)) (fun b s d => k (ValueIdx.ix3 b s d)) (fun b s d => v (ValueIdx.ix3 b s d))
      (fun j d => Wq (ValueIdx.ix2 j d)) (fun j d => Wk (ValueIdx.ix2 j d)) (fun j d => Wv (ValueIdx.ix2 j d))
      (fun j => bq (ValueIdx.ix1 j)) (fun j => bk (ValueIdx.ix1 j)) (fun j => bv (ValueIdx.ix1 j))
      _ _ _ _ _ _ _ _ _ (fun _ _ _ => hq _) (fun _ _ _ => hk _) (fun _ _ _ => hv _) (fun _ _ => hWq _) (fun _ => hbq _)
      (fun _ _ => hWk _) (fun _ => hbk _) (fun _ _ => hWv _) (fun _ => hbv _) b s j]
  exact (Cert.KernelIdeal.Final.result_eq m ρ c (fun b s d => q (ValueIdx.ix3 b s d)) (fun b s d => k (ValueIdx.ix3 b s d)) (fun b s d => v (ValueIdx.ix3 b s d))
      (fun j d => Wq (ValueIdx.ix2 j d)) (fun j d => Wk (ValueIdx.ix2 j d)) (fun j d => Wv (ValueIdx.ix2 j d))
      (fun j => bq (ValueIdx.ix1 j)) (fun j => bk (ValueIdx.ix1 j)) (fun j => bv (ValueIdx.ix1 j))
      (fun _ _ _ => hq _) (fun _ _ _ => hk _) (fun _ _ _ => hv _) (fun _ _ => hWq _) (fun _ => hbq _)
      (fun _ _ => hWk _) (fun _ => hbk _) (fun _ _ => hWv _) (fun _ => hbv _) b s j).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
